-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn {F : FTy → Type} [FloatOps F] (main_arg0 : FVec F S4096x256 .f32) (main_arg1 : FVec F S4096x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  main_v8
-- ==== Kernel.lean ====
abbrev S4096x256 : Shape := ⟨2, ![4096, 256]⟩
abbrev S1x4 : Shape := ⟨2, ![1, 4]⟩
abbrev S1x256 : Shape := ⟨2, ![1, 256]⟩
abbrev S512x256 : Shape := ⟨2, ![512, 256]⟩
abbrev S1x1 : Shape := ⟨2, ![1, 1]⟩
abbrev S512 : Shape := ⟨1, ![512]⟩
abbrev S512x1 : Shape := ⟨2, ![512, 1]⟩
abbrev S1 : Shape := ⟨1, ![1]⟩
abbrev S256 : Shape := ⟨1, ![256]⟩
abbrev S_ : Shape := ⟨0, ![]⟩

abbrev nBuf : Space → Nat
  | .hbm => 75
  | .vmem => 13
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S1x4, .f32⟩
  | .hbm, ⟨3, _⟩ => ⟨S1x256, .f32⟩
  | .hbm, ⟨4, _⟩ => ⟨S1x256, .f32⟩
  | .hbm, ⟨5, _⟩ => ⟨S1x1, .f32⟩
  | .hbm, ⟨6, _⟩ => ⟨S_, .f32⟩
  | .hbm, ⟨7, _⟩ => ⟨S1x1, .f32⟩
  | .hbm, ⟨8, _⟩ => ⟨S_, .f32⟩
  | .hbm, ⟨9, _⟩ => ⟨S1x1, .f32⟩
  | .hbm, ⟨10, _⟩ => ⟨S_, .f32⟩
  | .hbm, ⟨11, _⟩ => ⟨S1x1, .f32⟩
  | .hbm, ⟨12, _⟩ => ⟨S_, .f32⟩
  | .hbm, ⟨13, _⟩ => ⟨S_, .f32⟩
  | .hbm, ⟨14, _⟩ => ⟨S256, .f32⟩
  | .hbm, ⟨15, _⟩ => ⟨S256, .f32⟩
  | .hbm, ⟨16, _⟩ => ⟨S256, .f32⟩
  | .hbm, ⟨17, _⟩ => ⟨S256, .f32⟩
  | .hbm, ⟨18, _⟩ => ⟨S256, .f32⟩
  | .hbm, ⟨19, _⟩ => ⟨S256, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S256, .f32⟩
  | .hbm, ⟨26, _⟩ => ⟨S256, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S256, .f32⟩
  | .hbm, ⟨67, _⟩ => ⟨S256, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S1x4, .f32⟩
  | .local _ .vmem, ⟨5, _⟩ => ⟨S1x256, .f32⟩
  | .local _ .vmem, ⟨6, _⟩ => ⟨S1x256, .f32⟩
  | .local _ .vmem, ⟨7, _⟩ => ⟨S1x1, .f32⟩
  | .local _ .vmem, ⟨8, _⟩ => ⟨S1x1, .f32⟩
  | .local _ .vmem, ⟨9, _⟩ => ⟨S1x1, .f32⟩
  | .local _ .vmem, ⟨10, _⟩ => ⟨S1x1, .f32⟩
  | .local _ .vmem, ⟨11, _⟩ => ⟨S1x256, .f32⟩
  | .local _ .vmem, ⟨12, _⟩ => ⟨S1x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst : Ref sig .tc := ⟨.hbm, 27, rfl⟩
abbrev main_v23 : Ref sig .tc := ⟨.hbm, 28, rfl⟩
abbrev main_cst_0 : Ref sig .tc := ⟨.hbm, 29, rfl⟩
abbrev main_v24 : Ref sig .tc := ⟨.hbm, 30, rfl⟩
abbrev main_cst_1 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_cst_9 : Ref sig .tc := ⟨.hbm, 48, rfl⟩
abbrev main_v34 : Ref sig .tc := ⟨.hbm, 49, rfl⟩
abbrev main_v35 : Ref sig .tc := ⟨.hbm, 50, rfl⟩
abbrev main_cst_10 : Ref sig .tc := ⟨.hbm, 51, rfl⟩
abbrev main_v36 : Ref sig .tc := ⟨.hbm, 52, rfl⟩
abbrev main_cst_11 : Ref sig .tc := ⟨.hbm, 53, rfl⟩
abbrev main_v37 : Ref sig .tc := ⟨.hbm, 54, rfl⟩
abbrev main_v38 : Ref sig .tc := ⟨.hbm, 55, rfl⟩
abbrev main_cst_12 : Ref sig .tc := ⟨.hbm, 56, rfl⟩
abbrev main_v39 : Ref sig .tc := ⟨.hbm, 57, rfl⟩
abbrev main_cst_13 : Ref sig .tc := ⟨.hbm, 58, rfl⟩
abbrev main_v40 : Ref sig .tc := ⟨.hbm, 59, rfl⟩
abbrev main_v41 : Ref sig .tc := ⟨.hbm, 60, rfl⟩
abbrev main_cst_14 : Ref sig .tc := ⟨.hbm, 61, rfl⟩
abbrev main_v42 : Ref sig .tc := ⟨.hbm, 62, rfl⟩
abbrev main_cst_15 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_16 : Ref sig .tc := ⟨.hbm, 68, rfl⟩
abbrev main_v47 : Ref sig .tc := ⟨.hbm, 69, rfl⟩
abbrev main_cst_17 : Ref sig .tc := ⟨.hbm, 70, rfl⟩
abbrev main_v48 : Ref sig .tc := ⟨.hbm, 71, rfl⟩
abbrev main_cst_18 : Ref sig .tc := ⟨.hbm, 72, rfl⟩
abbrev main_v49 : Ref sig .tc := ⟨.hbm, 73, rfl⟩
abbrev main_v50 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v57 : BitVec 1 := Scalar.cmpi .eq arg0 c7_i32
  let v58 : BitVec 32 := Scalar.extui v57
  let c0_i32_37 : BitVec 32 := 0#32
  let v59 : BitVec 1 := Scalar.cmpi .ne v58 c0_i32_37
  v59

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S512x256_S512x256_0_0 : ∀ a, (![0, 0] : Fin 2 → Nat) a + S512x256.size a ≤ S512x256.size a
  h_S512x256 : 0 < S512x256.numel
  reduces_S512x256_S512 : S512x256.Reduces [1] S512
  shapeCasts_S512_S512x1 : S512.ShapeCasts S512x1
  reduces_S512x1_S1 : S512x1.Reduces [0] S1
  shapeCasts_S1_S1x1 : S1.ShapeCasts S1x1
  reduces_S512x256_S256 : S512x256.Reduces [0] S256
  shapeCasts_S256_S1x256 : S256.ShapeCasts S1x256
  concatenates_S1x1_S1x1_S1x1_S1x1_S1x4_d1 : Shape.Concatenates [S1x1, S1x1, S1x1, S1x1] S1x4 1
  inb_S1x4_S1x4_0_0 : ∀ a, (![0, 0] : Fin 2 → Nat) a + S1x4.size a ≤ S1x4.size a
  h_S1x4 : 0 < S1x4.numel
  slices_S1x4_S1x1_0_0 : S1x4.Slices ![0, 0] S1x1
  shapeCasts_S1x1_S_ : S1x1.ShapeCasts S_
  slices_S1x4_S1x1_0_1 : S1x4.Slices ![0, 1] S1x1
  slices_S1x4_S1x1_0_2 : S1x4.Slices ![0, 2] S1x1
  slices_S1x4_S1x1_0_3 : S1x4.Slices ![0, 3] S1x1
  shapeCasts_S1x256_S256 : S1x256.ShapeCasts S256
  bcast_S_S256 : S_.BroadcastsInDim S256 (![] : Fin 0 → Fin S256.rank)
  reducesTo_S256_S_d0 : S256.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S4096x256.size a
  hwx0_0 : ∀ i : grid0.Coords, EltTy.bits .f32 = 32 ∨ (Rect.block (s := S4096x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S4096x256.size a
  hwx0_1 : ∀ i : grid0.Coords, EltTy.bits .f32 = 32 ∨ (Rect.block (s := S4096x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4.size a ≤ S1x4.size a
  hwx0_2 : ∀ i : grid0.Coords, EltTy.bits .f32 = 32 ∨ (Rect.block (s := S1x4) S1x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)

variable [Facts₀]

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x4.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x256.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x256.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun i => !(k0_cond2 i == 1#1) | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4096x256 : Shape := ⟨2, ![4096, 256]⟩
abbrev S_ : Shape := ⟨0, ![]⟩
abbrev S8192x256 : Shape := ⟨2, ![8192, 256]⟩
abbrev S8192 : Shape := ⟨1, ![8192]⟩
abbrev S256x8192 : Shape := ⟨2, ![256, 8192]⟩
abbrev S8192x8192 : Shape := ⟨2, ![8192, 8192]⟩
abbrev S8192x1 : Shape := ⟨2, ![8192, 1]⟩
abbrev S1x8192 : Shape := ⟨2, ![1, 8192]⟩
abbrev S4096x4096 : Shape := ⟨2, ![4096, 4096]⟩

abbrev nBuf : Space → Nat
  | .hbm => 75
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S4096x256, .f32⟩
  | .hbm, ⟨8, _⟩ => ⟨S4096x256, .f32⟩
  | .hbm, ⟨9, _⟩ => ⟨S4096x256, .f32⟩
  | .hbm, ⟨10, _⟩ => ⟨S4096x256, .f32⟩
  | .hbm, ⟨11, _⟩ => ⟨S8192x256, .f32⟩
  | .hbm, ⟨12, _⟩ => ⟨S8192x256, .f32⟩
  | .hbm, ⟨13, _⟩ => ⟨S_, .f32⟩
  | .hbm, ⟨14, _⟩ => ⟨S8192, .f32⟩
  | .hbm, ⟨15, _⟩ => ⟨S256x8192, .f32⟩
  | .hbm, ⟨16, _⟩ => ⟨S8192x8192, .f32⟩
  | .hbm, ⟨17, _⟩ => ⟨S8192x1, .f32⟩
  | .hbm, ⟨18, _⟩ => ⟨S1x8192, .f32⟩
  | .hbm, ⟨19, _⟩ => ⟨S8192x8192, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S8192x8192, .f32⟩
  | .hbm, ⟨62, _⟩ => ⟨S8192x8192, .f32⟩
  | .hbm, ⟨63, _⟩ => ⟨S8192x8192, .f32⟩
  | .hbm, ⟨64, _⟩ => ⟨S4096x4096, .f32⟩
  | .hbm, ⟨65, _⟩ => ⟨S4096x4096, .f32⟩
  | .hbm, ⟨66, _⟩ => ⟨S4096x4096, .f32⟩
  | .hbm, ⟨67, _⟩ => ⟨S4096x4096, .f32⟩
  | .hbm, ⟨68, _⟩ => ⟨S4096x4096, .f32⟩
  | .hbm, ⟨69, _⟩ => ⟨S4096x4096, .f32⟩
  | .hbm, ⟨70, _⟩ => ⟨S4096x4096, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_cst_6 : Ref sig .tc := ⟨.hbm, 33, rfl⟩
abbrev main_v24 : Ref sig .tc := ⟨.hbm, 34, rfl⟩
abbrev main_cst_7 : Ref sig .tc := ⟨.hbm, 35, rfl⟩
abbrev main_v25 : Ref sig .tc := ⟨.hbm, 36, rfl⟩
abbrev main_cst_8 : Ref sig .tc := ⟨.hbm, 37, rfl⟩
abbrev main_v26 : Ref sig .tc := ⟨.hbm, 38, rfl⟩
abbrev main_cst_9 : Ref sig .tc := ⟨.hbm, 39, rfl⟩
abbrev main_v27 : Ref sig .tc := ⟨.hbm, 40, rfl⟩
abbrev main_cst_10 : Ref sig .tc := ⟨.hbm, 41, rfl⟩
abbrev main_v28 : Ref sig .tc := ⟨.hbm, 42, rfl⟩
abbrev main_cst_11 : Ref sig .tc := ⟨.hbm, 43, rfl⟩
abbrev main_v29 : Ref sig .tc := ⟨.hbm, 44, rfl⟩
abbrev main_v30 : Ref sig .tc := ⟨.hbm, 45, rfl⟩
abbrev main_cst_12 : Ref sig .tc := ⟨.hbm, 46, rfl⟩
abbrev main_v31 : Ref sig .tc := ⟨.hbm, 47, rfl⟩
abbrev main_cst_13 : Ref sig .tc := ⟨.hbm, 48, rfl⟩
abbrev main_v32 : Ref sig .tc := ⟨.hbm, 49, rfl⟩
abbrev main_v33 : Ref sig .tc := ⟨.hbm, 50, rfl⟩
abbrev main_cst_14 : Ref sig .tc := ⟨.hbm, 51, rfl⟩
abbrev main_v34 : Ref sig .tc := ⟨.hbm, 52, rfl⟩
abbrev main_cst_15 : Ref sig .tc := ⟨.hbm, 53, rfl⟩
abbrev main_v35 : Ref sig .tc := ⟨.hbm, 54, rfl⟩
abbrev main_v36 : Ref sig .tc := ⟨.hbm, 55, rfl⟩
abbrev main_cst_16 : Ref sig .tc := ⟨.hbm, 56, rfl⟩
abbrev main_v37 : Ref sig .tc := ⟨.hbm, 57, rfl⟩
abbrev main_cst_17 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_18 : Ref sig .tc := ⟨.hbm, 71, rfl⟩
abbrev main_v50 : Ref sig .tc := ⟨.hbm, 72, rfl⟩
abbrev main_cst_19 : Ref sig .tc := ⟨.hbm, 73, rfl⟩
abbrev main_v51 : Ref sig .tc := ⟨.hbm, 74, rfl⟩

abbrev nD : Nat := 1
abbrev τ : Topo := Topo.v7x

variable {F : FTy → Type} [FloatOps F]

class Facts₀ : Prop where
  reducesTo_S4096x256_S_d0_1 : S4096x256.ReducesTo [0, 1] S_
  h_S_ : 0 < S_.numel
  bcast_S_S4096x256 : S_.BroadcastsInDim S4096x256 (![] : Fin 0 → Fin S4096x256.rank)
  concatenates_S4096x256_S4096x256_S8192x256_d0 : Shape.Concatenates [S4096x256, S4096x256] S8192x256 0
  reducesTo_S8192x256_S8192_d1 : S8192x256.ReducesTo [1] S8192
  transposes_S8192x256_S256x8192_1_0 : S8192x256.Transposes [1, 0] S256x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S_d0_1 : S8192x8192.ReducesTo [0, 1] S_
  slices_S8192x8192_S4096x4096_0_0 : S8192x8192.Slices ![0, 0] S4096x4096
  slices_S8192x8192_S4096x4096_4096_4096 : S8192x8192.Slices ![4096, 4096] S4096x4096
  slices_S8192x8192_S4096x4096_0_4096 : S8192x8192.Slices ![0, 4096] S4096x4096
  slices_S8192x8192_S4096x4096_4096_0 : S8192x8192.Slices ![4096, 0] S4096x4096
  reducesTo_S4096x4096_S_d0_1 : S4096x4096.ReducesTo [0, 1] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.KRuns.lean ====
import proofs.«167831_j66408784331046_1_alg».proof.Proof.Gen.KernelIdeal.Launch
import proofs.«167831_j66408784331046_1_alg».proof.Proof.Gen.KernelIdeal.Skeleton
import proofs.«167831_j66408784331046_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V0 (c : Dev nD) : Valuation τ sig (Elt F) := StableHlo.after (List.flatten []) (fun b => m (c, b))

abbrev V (c : Dev nD) (b : Ref sig .tc) : Buf (Elt F) ((c : Thread nD τ).loc b) := V0 m c (Proc.devRef .tc b)

set_option maxHeartbeats 40000000 in

theorem hostOps1_fresh : (hostOps1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxHeartbeats 40000000 in

theorem hostOps1_keeps : (hostOps1 : List (HloOp τ sig (Elt F))).Forall fun op =>
    ∀ w, Proc.devRef .tc (Pipeline.arrRef spec0 w) ∉ op.writes := by
  simp only [List.Forall]
  repeat' constructor
  all_goals intro w; fin_cases w <;> simp only [StableHlo.nullary_writes, StableHlo.unary_writes, StableHlo.binary_writes, StableHlo.reshape_writes, Finset.mem_singleton] <;> exact StableHlo.devRef_ne_of_ne (by decide)

set_option maxHeartbeats 40000000 in

theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

set_option maxHeartbeats 40000000 in

theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
set_option maxHeartbeats 40000000 in

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
set_option maxHeartbeats 40000000 in

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · exact (List.forall_iff_forall_mem.mp hostOps1_keeps) op hop

theorem V_main_arg0 (c : Dev nD) : V m c main_arg0 = m ((c : Thread nD τ).loc main_arg0) := rfl
theorem V_main_arg1 (c : Dev nD) : V m c main_arg1 = m ((c : Thread nD τ).loc main_arg1) := rfl
theorem V_main_v0_0 (c : Dev nD) : V m c main_v0_0 = m ((c : Thread nD τ).loc main_v0_0) := rfl
theorem V_main_v0_1 (c : Dev nD) : V m c main_v0_1 = m ((c : Thread nD τ).loc main_v0_1) := rfl
theorem V_main_v0_2 (c : Dev nD) : V m c main_v0_2 = m ((c : Thread nD τ).loc main_v0_2) := rfl

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

set_option maxHeartbeats 40000000 in

/-- A run to the region's frame post, read at the two arguments, is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats 0 c).arrAt_in 0 rfl _).trans ((hA c 0).trans (V_main_arg0 m c))),
     ((h c).1 1).trans (((dats 0 c).arrAt_in 1 rfl _).trans ((hA c 1).trans (V_main_arg1 m c)))⟩) h

abbrev cond0_0 (i : grid0.Coords) : Prop := (Scalar.cmpi .ne (Scalar.extui (Scalar.cmpi .eq (BitVec.ofNat 32 (i 0).val) 0#32)) 0#32) = 1#1

theorem hcond0_0 : ∀ t : Fin cfg0.N, cond0_0 (grid0.coords t) ↔ t.val % 8 = 0 :=
  (by decide +kernel : ∀ t : Fin grid0.N, cond0_0 (grid0.coords t) ↔ t.val % 8 = 0)

abbrev cond0_1 (i : grid0.Coords) : Prop := k0_cond2 i = 1#1

theorem hcond0_1 : ∀ t : Fin cfg0.N, cond0_1 (grid0.coords t) ↔ t.val % 8 = 7 :=
  (by decide +kernel : ∀ t : Fin grid0.N, cond0_1 (grid0.coords t) ↔ t.val % 8 = 7)

theorem liveAt0_0 : ∀ t : Fin cfg0.N, cfg0.idle 0 (grid0.coords t) = false := by decide +kernel

theorem liveAt0_1 : ∀ t : Fin cfg0.N, cfg0.idle 1 (grid0.coords t) = false := by decide +kernel

theorem idleAt0_2_A : ∀ t : Fin cfg0.N, cond0_0 (grid0.coords t) → ¬cond0_1 (grid0.coords t) → cfg0.idle 2 (grid0.coords t) = true := by decide +kernel

theorem noFlush0_2_A : ∀ t : Fin cfg0.N, cond0_0 (grid0.coords t) → ¬cond0_1 (grid0.coords t) → (cfg0.win 2).flush t = false := by decide +kernel

theorem idleAt0_2_B : ∀ t : Fin cfg0.N, ¬cond0_0 (grid0.coords t) → ¬cond0_1 (grid0.coords t) → cfg0.idle 2 (grid0.coords t) = true := by decide +kernel

theorem noFlush0_2_B : ∀ t : Fin cfg0.N, ¬cond0_0 (grid0.coords t) → ¬cond0_1 (grid0.coords t) → (cfg0.win 2).flush t = false := by decide +kernel

theorem liveAt0_2_C : ∀ t : Fin cfg0.N, ¬cond0_0 (grid0.coords t) → cond0_1 (grid0.coords t) → cfg0.idle 2 (grid0.coords t) = false := by decide +kernel

theorem idleAt0_3_A : ∀ t : Fin cfg0.N, cond0_0 (grid0.coords t) → ¬cond0_1 (grid0.coords t) → cfg0.idle 3 (grid0.coords t) = true := by decide +kernel

theorem noFlush0_3_A : ∀ t : Fin cfg0.N, cond0_0 (grid0.coords t) → ¬cond0_1 (grid0.coords t) → (cfg0.win 3).flush t = false := by decide +kernel

theorem idleAt0_3_B : ∀ t : Fin cfg0.N, ¬cond0_0 (grid0.coords t) → ¬cond0_1 (grid0.coords t) → cfg0.idle 3 (grid0.coords t) = true := by decide +kernel

theorem noFlush0_3_B : ∀ t : Fin cfg0.N, ¬cond0_0 (grid0.coords t) → ¬cond0_1 (grid0.coords t) → (cfg0.win 3).flush t = false := by decide +kernel

theorem liveAt0_3_C : ∀ t : Fin cfg0.N, ¬cond0_0 (grid0.coords t) → cond0_1 (grid0.coords t) → cfg0.idle 3 (grid0.coords t) = false := by decide +kernel

theorem idleAt0_4_A : ∀ t : Fin cfg0.N, cond0_0 (grid0.coords t) → ¬cond0_1 (grid0.coords t) → cfg0.idle 4 (grid0.coords t) = true := by decide +kernel

theorem noFlush0_4_A : ∀ t : Fin cfg0.N, cond0_0 (grid0.coords t) → ¬cond0_1 (grid0.coords t) → (cfg0.win 4).flush t = false := by decide +kernel

theorem idleAt0_4_B : ∀ t : Fin cfg0.N, ¬cond0_0 (grid0.coords t) → ¬cond0_1 (grid0.coords t) → cfg0.idle 4 (grid0.coords t) = true := by decide +kernel

theorem noFlush0_4_B : ∀ t : Fin cfg0.N, ¬cond0_0 (grid0.coords t) → ¬cond0_1 (grid0.coords t) → (cfg0.win 4).flush t = false := by decide +kernel

theorem liveAt0_4_C : ∀ t : Fin cfg0.N, ¬cond0_0 (grid0.coords t) → cond0_1 (grid0.coords t) → cfg0.idle 4 (grid0.coords t) = false := by decide +kernel

abbrev VO0_2 : View sig .tc .vmem S1x4 .f32 := (Memref.whole cc0_stg2_0 : Memref sig .tc .vmem S1x4 .f32).view
abbrev VO0_3 : View sig .tc .vmem S1x256 .f32 := (Memref.whole cc0_stg3_0 : Memref sig .tc .vmem S1x256 .f32).view
abbrev VO0_4 : View sig .tc .vmem S1x256 .f32 := (Memref.whole cc0_stg4_0 : Memref sig .tc .vmem S1x256 .f32).view

abbrev ms0_0 (t : Fin cfg0.N) : Memref sig .tc .vmem S512x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)

abbrev scM0_0 : Memref sig .tc .vmem S1x1 .f32 := Memref.whole cc0_scratch0
abbrev scM0_1 : Memref sig .tc .vmem S1x1 .f32 := Memref.whole cc0_scratch1
abbrev scM0_2 : Memref sig .tc .vmem S1x1 .f32 := Memref.whole cc0_scratch2
abbrev scM0_3 : Memref sig .tc .vmem S1x1 .f32 := Memref.whole cc0_scratch3
abbrev scM0_4 : Memref sig .tc .vmem S1x256 .f32 := Memref.whole cc0_scratch4
abbrev scM0_5 : Memref sig .tc .vmem S1x256 .f32 := Memref.whole cc0_scratch5

abbrev VS0_0 : View sig .tc .vmem S1x1 .f32 := scM0_0.view
abbrev VS0_1 : View sig .tc .vmem S1x1 .f32 := scM0_1.view
abbrev VS0_2 : View sig .tc .vmem S1x1 .f32 := scM0_2.view
abbrev VS0_3 : View sig .tc .vmem S1x1 .f32 := scM0_3.view
abbrev VS0_4 : View sig .tc .vmem S1x256 .f32 := scM0_4.view
abbrev VS0_5 : View sig .tc .vmem S1x256 .f32 := scM0_5.view

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.KernelIdeal.Hand

end
-- ==== Proof.KRunA.lean ====
import proofs.«167831_j66408784331046_1_alg».proof.Proof.KRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in

noncomputable def kernelRun0_A (c : Dev nD) (i : grid0.Coords) (arg1 : Memref sig .tc .vmem S512x256 .f32) (harg1 : arg1.IsWhole) (arg2 : Memref sig .tc .vmem S512x256 .f32) (harg2 : arg2.IsWhole) (arg3 : Memref sig .tc .vmem S1x4 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x256 .f32) (harg10 : arg10.IsWhole) (arg11 : Memref sig .tc .vmem S1x256 .f32) (harg11 : arg11.IsWhole) (hc0 : cond0_0 i) (hc1 : ¬cond0_1 i)
    (x0 : Vec F S512x256 .f32) (x1 : Vec F S512x256 .f32) :
    Σ' (L2 : List (View.Piece (Elt F) S1x4 .f32)), Σ' (L3 : List (View.Piece (Elt F) S1x256 .f32)), Σ' (L4 : List (View.Piece (Elt F) S1x256 .f32)), Σ' (LS0 : List (View.Piece (Elt F) S1x1 .f32)), Σ' (LS1 : List (View.Piece (Elt F) S1x1 .f32)), Σ' (LS2 : List (View.Piece (Elt F) S1x1 .f32)), Σ' (LS3 : List (View.Piece (Elt F) S1x1 .f32)), Σ' (LS4 : List (View.Piece (Elt F) S1x256 .f32)), { LS5 : List (View.Piece (Elt F) S1x256 .f32) //
      ∀ (xi2 : Vec F S1x4 .f32) (xi3 : Vec F S1x256 .f32) (xi4 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3 ∗ owns (c : Thread nD τ) arg5 fullShare xi4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare xi2 ∗ owns (c : Thread nD τ) arg4 fullShare xi3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2) ∗ (∃ f, arg9.view.loc (c : Thread nD τ) ↦[arg9.view.set]{fullShare} arg9.view.writes (Elt F) f LS3) ∗ (∃ f, arg10.view.loc (c : Thread nD τ) ↦[arg10.view.set]{fullShare} arg10.view.writes (Elt F) f LS4) ∗ (∃ f, arg11.view.loc (c : Thread nD τ) ↦[arg11.view.set]{fullShare} arg11.view.writes (Elt F) f LS5)) -∗ K ⟨⟩))
          ⊢ wp frame (wpE (defs₀ (F := F)) Variants.none c none) E (cc0__reduce_kernel i arg1 harg1 arg2 harg2 arg3 harg3 arg4 harg4 arg5 harg5 arg6 harg6 arg7 harg7 arg8 harg8 arg9 harg9 arg10 harg10 arg11 harg11) K } := by
  refine ⟨[], [], [], ?_, ?_, ?_, ?_, ?_, ?_, fun xi2 xi3 xi4 E K => ?run⟩
  case run =>
    simp only [cc0__reduce_kernel_eq_skeleton]; unfold cc0__reduce_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.KernelIdeal.Hand

end
-- ==== Proof.KRunB.lean ====
import proofs.«167831_j66408784331046_1_alg».proof.Proof.KRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in

noncomputable def kernelRun0_B (c : Dev nD) (i : grid0.Coords) (arg1 : Memref sig .tc .vmem S512x256 .f32) (harg1 : arg1.IsWhole) (arg2 : Memref sig .tc .vmem S512x256 .f32) (harg2 : arg2.IsWhole) (arg3 : Memref sig .tc .vmem S1x4 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x256 .f32) (harg10 : arg10.IsWhole) (arg11 : Memref sig .tc .vmem S1x256 .f32) (harg11 : arg11.IsWhole) (hc0 : ¬cond0_0 i) (hc1 : ¬cond0_1 i)
    (x0 : Vec F S512x256 .f32) (x1 : Vec F S512x256 .f32) (xs0 : Vec F S1x1 .f32) (xs1 : Vec F S1x1 .f32) (xs2 : Vec F S1x1 .f32) (xs3 : Vec F S1x1 .f32) (xs4 : Vec F S1x256 .f32) (xs5 : Vec F S1x256 .f32) :
    Σ' (L2 : List (View.Piece (Elt F) S1x4 .f32)), Σ' (L3 : List (View.Piece (Elt F) S1x256 .f32)), Σ' (L4 : List (View.Piece (Elt F) S1x256 .f32)), Σ' (LS0 : List (View.Piece (Elt F) S1x1 .f32)), Σ' (LS1 : List (View.Piece (Elt F) S1x1 .f32)), Σ' (LS2 : List (View.Piece (Elt F) S1x1 .f32)), Σ' (LS3 : List (View.Piece (Elt F) S1x1 .f32)), Σ' (LS4 : List (View.Piece (Elt F) S1x256 .f32)), { LS5 : List (View.Piece (Elt F) S1x256 .f32) //
      ∀ (xi2 : Vec F S1x4 .f32) (xi3 : Vec F S1x256 .f32) (xi4 : Vec F S1x256 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3 ∗ owns (c : Thread nD τ) arg5 fullShare xi4 ∗ owns (c : Thread nD τ) arg6 fullShare xs0 ∗ owns (c : Thread nD τ) arg7 fullShare xs1 ∗ owns (c : Thread nD τ) arg8 fullShare xs2 ∗ owns (c : Thread nD τ) arg9 fullShare xs3 ∗ owns (c : Thread nD τ) arg10 fullShare xs4 ∗ owns (c : Thread nD τ) arg11 fullShare xs5
            ∗ (iprop(owns (c : Thread nD τ) arg1 fullShare x0 ∗ owns (c : Thread nD τ) arg2 fullShare x1 ∗ owns (c : Thread nD τ) arg3 fullShare xi2 ∗ owns (c : Thread nD τ) arg4 fullShare xi3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2) ∗ (∃ f, arg9.view.loc (c : Thread nD τ) ↦[arg9.view.set]{fullShare} arg9.view.writes (Elt F) f LS3) ∗ (∃ f, arg10.view.loc (c : Thread nD τ) ↦[arg10.view.set]{fullShare} arg10.view.writes (Elt F) f LS4) ∗ (∃ f, arg11.view.loc (c : Thread nD τ) ↦[arg11.view.set]{fullShare} arg11.view.writes (Elt F) f LS5)) -∗ K ⟨⟩))
          ⊢ wp frame (wpE (defs₀ (F := F)) Variants.none c none) E (cc0__reduce_kernel i arg1 harg1 arg2 harg2 arg3 harg3 arg4 harg4 arg5 harg5 arg6 harg6 arg7 harg7 arg8 harg8 arg9 harg9 arg10 harg10 arg11 harg11) K } := by
  refine ⟨[], [], [], ?_, ?_, ?_, ?_, ?_, ?_, fun xi2 xi3 xi4 E K => ?run⟩
  case run =>
    simp only [cc0__reduce_kernel_eq_skeleton]; unfold cc0__reduce_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hfs0; obtain rfl := harg7.eq_unread hfs1; obtain rfl := harg8.eq_unread hfs2; obtain rfl := harg9.eq_unread hfs3; obtain rfl := harg10.eq_unread hfs4; obtain rfl := harg11.eq_unread hfs5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.KernelIdeal.Hand

end
-- ==== Proof.KRunC.lean ====
import proofs.«167831_j66408784331046_1_alg».proof.Proof.KRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in

noncomputable def kernelRun0_C (c : Dev nD) (i : grid0.Coords) (arg1 : Memref sig .tc .vmem S512x256 .f32) (harg1 : arg1.IsWhole) (arg2 : Memref sig .tc .vmem S512x256 .f32) (harg2 : arg2.IsWhole) (arg3 : Memref sig .tc .vmem S1x4 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x256 .f32) (harg10 : arg10.IsWhole) (arg11 : Memref sig .tc .vmem S1x256 .f32) (harg11 : arg11.IsWhole) (hc0 : ¬cond0_0 i) (hc1 : cond0_1 i)
    (x0 : Vec F S512x256 .f32) (x1 : Vec F S512x256 .f32) (xs0 : Vec F S1x1 .f32) (xs1 : Vec F S1x1 .f32) (xs2 : Vec F S1x1 .f32) (xs3 : Vec F S1x1 .f32) (xs4 : Vec F S1x256 .f32) (xs5 : Vec F S1x256 .f32) :
    Σ' (L2 : List (View.Piece (Elt F) S1x4 .f32)), Σ' (L3 : List (View.Piece (Elt F) S1x256 .f32)), Σ' (L4 : List (View.Piece (Elt F) S1x256 .f32)), Σ' (LS0 : List (View.Piece (Elt F) S1x1 .f32)), Σ' (LS1 : List (View.Piece (Elt F) S1x1 .f32)), Σ' (LS2 : List (View.Piece (Elt F) S1x1 .f32)), Σ' (LS3 : List (View.Piece (Elt F) S1x1 .f32)), Σ' (LS4 : List (View.Piece (Elt F) S1x256 .f32)), { LS5 : List (View.Piece (Elt F) S1x256 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare xs0 ∗ owns (c : Thread nD τ) arg7 fullShare xs1 ∗ owns (c : Thread nD τ) arg8 fullShare xs2 ∗ owns (c : Thread nD τ) arg9 fullShare xs3 ∗ owns (c : Thread nD τ) arg10 fullShare xs4 ∗ owns (c : Thread nD τ) arg11 fullShare xs5
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2) ∗ (∃ f, arg9.view.loc (c : Thread nD τ) ↦[arg9.view.set]{fullShare} arg9.view.writes (Elt F) f LS3) ∗ (∃ f, arg10.view.loc (c : Thread nD τ) ↦[arg10.view.set]{fullShare} arg10.view.writes (Elt F) f LS4) ∗ (∃ f, arg11.view.loc (c : Thread nD τ) ↦[arg11.view.set]{fullShare} arg11.view.writes (Elt F) f LS5)) -∗ K ⟨⟩))
          ⊢ wp frame (wpE (defs₀ (F := F)) Variants.none c none) E (cc0__reduce_kernel i arg1 harg1 arg2 harg2 arg3 harg3 arg4 harg4 arg5 harg5 arg6 harg6 arg7 harg7 arg8 harg8 arg9 harg9 arg10 harg10 arg11 harg11) K } := by
  refine ⟨?_, ?_, ?_, ?_, ?_, ?_, ?_, ?_, ?_, fun E K => ?run⟩
  case run =>
    simp only [cc0__reduce_kernel_eq_skeleton]; unfold cc0__reduce_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg1.eq_unread hf0; obtain rfl := harg2.eq_unread hf1; obtain rfl := harg6.eq_unread hfs0; obtain rfl := harg7.eq_unread hfs1; obtain rfl := harg8.eq_unread hfs2; obtain rfl := harg9.eq_unread hfs3; obtain rfl := harg10.eq_unread hfs4; obtain rfl := harg11.eq_unread hfs5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.KernelIdeal.Hand

end
-- ==== Proof.KFrame.lean ====
import proofs.«167831_j66408784331046_1_alg».proof.Proof.KRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The three output windows' blocks and the six carried scratches, side by side. -/
abbrev Outs (F : FTy → Type) : Type :=
  Vec F S1x4 .f32 × Vec F S1x256 .f32 × Vec F S1x256 .f32 × Vec F S1x1 .f32 × Vec F S1x1 .f32 × Vec F S1x1 .f32 × Vec F S1x1 .f32 × Vec F S1x256 .f32 × Vec F S1x256 .f32

/-- A grid point with the body's eleven memref operands, each a whole buffer. -/
structure Operands where
  i : grid0.Coords
  arg1 : Memref sig .tc .vmem S512x256 .f32
  harg1 : arg1.IsWhole
  arg2 : Memref sig .tc .vmem S512x256 .f32
  harg2 : arg2.IsWhole
  arg3 : Memref sig .tc .vmem S1x4 .f32
  harg3 : arg3.IsWhole
  arg4 : Memref sig .tc .vmem S1x256 .f32
  harg4 : arg4.IsWhole
  arg5 : Memref sig .tc .vmem S1x256 .f32
  harg5 : arg5.IsWhole
  arg6 : Memref sig .tc .vmem S1x1 .f32
  harg6 : arg6.IsWhole
  arg7 : Memref sig .tc .vmem S1x1 .f32
  harg7 : arg7.IsWhole
  arg8 : Memref sig .tc .vmem S1x1 .f32
  harg8 : arg8.IsWhole
  arg9 : Memref sig .tc .vmem S1x1 .f32
  harg9 : arg9.IsWhole
  arg10 : Memref sig .tc .vmem S1x256 .f32
  harg10 : arg10.IsWhole
  arg11 : Memref sig .tc .vmem S1x256 .f32
  harg11 : arg11.IsWhole

/-- The body's operands at point `t`. -/
abbrev operandsAt (t : Fin cfg0.N) : Operands :=
  ⟨grid0.coords t, ms0_0 t, hs0_0 t, ms0_1 t, hs0_1 t, ms0_2 t, hs0_2 t, ms0_3 t, hs0_3 t, ms0_4 t, hs0_4 t, scM0_0, Memref.isWhole_whole _, scM0_1, Memref.isWhole_whole _, scM0_2, Memref.isWhole_whole _, scM0_3, Memref.isWhole_whole _, scM0_4, Memref.isWhole_whole _, scM0_5, Memref.isWhole_whole _⟩

/-- Each case's run of the body, on bundled operands. -/
abbrev runA (c : Dev nD) (a : Operands) (hc0 : cond0_0 a.i) (hc1 : ¬cond0_1 a.i) (x0 : Vec F S512x256 .f32) (x1 : Vec F S512x256 .f32) :=
  kernelRun0_A c a.i a.arg1 a.harg1 a.arg2 a.harg2 a.arg3 a.harg3 a.arg4 a.harg4 a.arg5 a.harg5 a.arg6 a.harg6 a.arg7 a.harg7 a.arg8 a.harg8 a.arg9 a.harg9 a.arg10 a.harg10 a.arg11 a.harg11 hc0 hc1 x0 x1
abbrev runB (c : Dev nD) (a : Operands) (hc0 : ¬cond0_0 a.i) (hc1 : ¬cond0_1 a.i) (x0 : Vec F S512x256 .f32) (x1 : Vec F S512x256 .f32) (xs0 : Vec F S1x1 .f32) (xs1 : Vec F S1x1 .f32) (xs2 : Vec F S1x1 .f32) (xs3 : Vec F S1x1 .f32) (xs4 : Vec F S1x256 .f32) (xs5 : Vec F S1x256 .f32) :=
  kernelRun0_B c a.i a.arg1 a.harg1 a.arg2 a.harg2 a.arg3 a.harg3 a.arg4 a.harg4 a.arg5 a.harg5 a.arg6 a.harg6 a.arg7 a.harg7 a.arg8 a.harg8 a.arg9 a.harg9 a.arg10 a.harg10 a.arg11 a.harg11 hc0 hc1 x0 x1 xs0 xs1 xs2 xs3 xs4 xs5
abbrev runC (c : Dev nD) (a : Operands) (hc0 : ¬cond0_0 a.i) (hc1 : cond0_1 a.i) (x0 : Vec F S512x256 .f32) (x1 : Vec F S512x256 .f32) (xs0 : Vec F S1x1 .f32) (xs1 : Vec F S1x1 .f32) (xs2 : Vec F S1x1 .f32) (xs3 : Vec F S1x1 .f32) (xs4 : Vec F S1x256 .f32) (xs5 : Vec F S1x256 .f32) :=
  kernelRun0_C c a.i a.arg1 a.harg1 a.arg2 a.harg2 a.arg3 a.harg3 a.arg4 a.harg4 a.arg5 a.harg5 a.arg6 a.harg6 a.arg7 a.harg7 a.arg8 a.harg8 a.arg9 a.harg9 a.arg10 a.harg10 a.arg11 a.harg11 hc0 hc1 x0 x1 xs0 xs1 xs2 xs3 xs4 xs5

section CaseA

variable (c : Dev nD) (a : Operands) (hc0 : cond0_0 a.i) (hc1 : ¬cond0_1 a.i)
  (x0 : Vec F S512x256 .f32) (x1 : Vec F S512x256 .f32)

def out0_A_2 : Vec F S1x4 .f32 :=
  VO0_2.read (Elt F) (VO0_2.writes (Elt F) VO0_2.junk (runA c a hc0 hc1 x0 x1).1)

def out0_A_3 : Vec F S1x256 .f32 :=
  VO0_3.read (Elt F) (VO0_3.writes (Elt F) VO0_3.junk (runA c a hc0 hc1 x0 x1).2.1)

def out0_A_4 : Vec F S1x256 .f32 :=
  VO0_4.read (Elt F) (VO0_4.writes (Elt F) VO0_4.junk (runA c a hc0 hc1 x0 x1).2.2.1)

theorem scover0_A_0 (y : S1x1.Idx) :
    ∃ pc ∈ (runA c a hc0 hc1 x0 x1).2.2.2.1, y ∈ pc.1.set :=
  View.cover_of_tiledL (runA c a hc0 hc1 x0 x1).2.2.2.1 S1x1.size (by sl_kernel_rfl) y

def sout0_A_0 : Vec F S1x1 .f32 :=
  VS0_0.read (Elt F) (VS0_0.writes (Elt F) VS0_0.junk (runA c a hc0 hc1 x0 x1).2.2.2.1)

theorem scover0_A_1 (y : S1x1.Idx) :
    ∃ pc ∈ (runA c a hc0 hc1 x0 x1).2.2.2.2.1, y ∈ pc.1.set :=
  View.cover_of_tiledL (runA c a hc0 hc1 x0 x1).2.2.2.2.1 S1x1.size (by sl_kernel_rfl) y

def sout0_A_1 : Vec F S1x1 .f32 :=
  VS0_1.read (Elt F) (VS0_1.writes (Elt F) VS0_1.junk (runA c a hc0 hc1 x0 x1).2.2.2.2.1)

theorem scover0_A_2 (y : S1x1.Idx) :
    ∃ pc ∈ (runA c a hc0 hc1 x0 x1).2.2.2.2.2.1, y ∈ pc.1.set :=
  View.cover_of_tiledL (runA c a hc0 hc1 x0 x1).2.2.2.2.2.1 S1x1.size (by sl_kernel_rfl) y

def sout0_A_2 : Vec F S1x1 .f32 :=
  VS0_2.read (Elt F) (VS0_2.writes (Elt F) VS0_2.junk (runA c a hc0 hc1 x0 x1).2.2.2.2.2.1)

theorem scover0_A_3 (y : S1x1.Idx) :
    ∃ pc ∈ (runA c a hc0 hc1 x0 x1).2.2.2.2.2.2.1, y ∈ pc.1.set :=
  View.cover_of_tiledL (runA c a hc0 hc1 x0 x1).2.2.2.2.2.2.1 S1x1.size (by sl_kernel_rfl) y

def sout0_A_3 : Vec F S1x1 .f32 :=
  VS0_3.read (Elt F) (VS0_3.writes (Elt F) VS0_3.junk (runA c a hc0 hc1 x0 x1).2.2.2.2.2.2.1)

theorem scover0_A_4 (y : S1x256.Idx) :
    ∃ pc ∈ (runA c a hc0 hc1 x0 x1).2.2.2.2.2.2.2.1, y ∈ pc.1.set :=
  View.cover_of_tiledL (runA c a hc0 hc1 x0 x1).2.2.2.2.2.2.2.1 S1x256.size (by sl_kernel_rfl) y

def sout0_A_4 : Vec F S1x256 .f32 :=
  VS0_4.read (Elt F) (VS0_4.writes (Elt F) VS0_4.junk (runA c a hc0 hc1 x0 x1).2.2.2.2.2.2.2.1)

theorem scover0_A_5 (y : S1x256.Idx) :
    ∃ pc ∈ (runA c a hc0 hc1 x0 x1).2.2.2.2.2.2.2.2.1, y ∈ pc.1.set :=
  View.cover_of_tiledL (runA c a hc0 hc1 x0 x1).2.2.2.2.2.2.2.2.1 S1x256.size (by sl_kernel_rfl) y

def sout0_A_5 : Vec F S1x256 .f32 :=
  VS0_5.read (Elt F) (VS0_5.writes (Elt F) VS0_5.junk (runA c a hc0 hc1 x0 x1).2.2.2.2.2.2.2.2.1)

/-- What the first point leaves in the three output windows and the six carried scratches. -/
def outs0_A : Outs F :=
  (out0_A_2 c a hc0 hc1 x0 x1,
    out0_A_3 c a hc0 hc1 x0 x1,
    out0_A_4 c a hc0 hc1 x0 x1,
    sout0_A_0 c a hc0 hc1 x0 x1,
    sout0_A_1 c a hc0 hc1 x0 x1,
    sout0_A_2 c a hc0 hc1 x0 x1,
    sout0_A_3 c a hc0 hc1 x0 x1,
    sout0_A_4 c a hc0 hc1 x0 x1,
    sout0_A_5 c a hc0 hc1 x0 x1)

end CaseA

section CaseB

variable (c : Dev nD) (a : Operands) (hc0 : ¬cond0_0 a.i) (hc1 : ¬cond0_1 a.i)
  (x0 : Vec F S512x256 .f32) (x1 : Vec F S512x256 .f32) (xs0 : Vec F S1x1 .f32) (xs1 : Vec F S1x1 .f32) (xs2 : Vec F S1x1 .f32) (xs3 : Vec F S1x1 .f32) (xs4 : Vec F S1x256 .f32) (xs5 : Vec F S1x256 .f32)

def out0_B_2 : Vec F S1x4 .f32 :=
  VO0_2.read (Elt F) (VO0_2.writes (Elt F) VO0_2.junk (runB c a hc0 hc1 x0 x1 xs0 xs1 xs2 xs3 xs4 xs5).1)

def out0_B_3 : Vec F S1x256 .f32 :=
  VO0_3.read (Elt F) (VO0_3.writes (Elt F) VO0_3.junk (runB c a hc0 hc1 x0 x1 xs0 xs1 xs2 xs3 xs4 xs5).2.1)

def out0_B_4 : Vec F S1x256 .f32 :=
  VO0_4.read (Elt F) (VO0_4.writes (Elt F) VO0_4.junk (runB c a hc0 hc1 x0 x1 xs0 xs1 xs2 xs3 xs4 xs5).2.2.1)

theorem scover0_B_0 (y : S1x1.Idx) :
    ∃ pc ∈ (runB c a hc0 hc1 x0 x1 xs0 xs1 xs2 xs3 xs4 xs5).2.2.2.1, y ∈ pc.1.set :=
  View.cover_of_tiledL (runB c a hc0 hc1 x0 x1 xs0 xs1 xs2 xs3 xs4 xs5).2.2.2.1 S1x1.size (by sl_kernel_rfl) y

def sout0_B_0 : Vec F S1x1 .f32 :=
  VS0_0.read (Elt F) (VS0_0.writes (Elt F) VS0_0.junk (runB c a hc0 hc1 x0 x1 xs0 xs1 xs2 xs3 xs4 xs5).2.2.2.1)

theorem scover0_B_1 (y : S1x1.Idx) :
    ∃ pc ∈ (runB c a hc0 hc1 x0 x1 xs0 xs1 xs2 xs3 xs4 xs5).2.2.2.2.1, y ∈ pc.1.set :=
  View.cover_of_tiledL (runB c a hc0 hc1 x0 x1 xs0 xs1 xs2 xs3 xs4 xs5).2.2.2.2.1 S1x1.size (by sl_kernel_rfl) y

def sout0_B_1 : Vec F S1x1 .f32 :=
  VS0_1.read (Elt F) (VS0_1.writes (Elt F) VS0_1.junk (runB c a hc0 hc1 x0 x1 xs0 xs1 xs2 xs3 xs4 xs5).2.2.2.2.1)

theorem scover0_B_2 (y : S1x1.Idx) :
    ∃ pc ∈ (runB c a hc0 hc1 x0 x1 xs0 xs1 xs2 xs3 xs4 xs5).2.2.2.2.2.1, y ∈ pc.1.set :=
  View.cover_of_tiledL (runB c a hc0 hc1 x0 x1 xs0 xs1 xs2 xs3 xs4 xs5).2.2.2.2.2.1 S1x1.size (by sl_kernel_rfl) y

def sout0_B_2 : Vec F S1x1 .f32 :=
  VS0_2.read (Elt F) (VS0_2.writes (Elt F) VS0_2.junk (runB c a hc0 hc1 x0 x1 xs0 xs1 xs2 xs3 xs4 xs5).2.2.2.2.2.1)

theorem scover0_B_3 (y : S1x1.Idx) :
    ∃ pc ∈ (runB c a hc0 hc1 x0 x1 xs0 xs1 xs2 xs3 xs4 xs5).2.2.2.2.2.2.1, y ∈ pc.1.set :=
  View.cover_of_tiledL (runB c a hc0 hc1 x0 x1 xs0 xs1 xs2 xs3 xs4 xs5).2.2.2.2.2.2.1 S1x1.size (by sl_kernel_rfl) y

def sout0_B_3 : Vec F S1x1 .f32 :=
  VS0_3.read (Elt F) (VS0_3.writes (Elt F) VS0_3.junk (runB c a hc0 hc1 x0 x1 xs0 xs1 xs2 xs3 xs4 xs5).2.2.2.2.2.2.1)

theorem scover0_B_4 (y : S1x256.Idx) :
    ∃ pc ∈ (runB c a hc0 hc1 x0 x1 xs0 xs1 xs2 xs3 xs4 xs5).2.2.2.2.2.2.2.1, y ∈ pc.1.set :=
  View.cover_of_tiledL (runB c a hc0 hc1 x0 x1 xs0 xs1 xs2 xs3 xs4 xs5).2.2.2.2.2.2.2.1 S1x256.size (by sl_kernel_rfl) y

def sout0_B_4 : Vec F S1x256 .f32 :=
  VS0_4.read (Elt F) (VS0_4.writes (Elt F) VS0_4.junk (runB c a hc0 hc1 x0 x1 xs0 xs1 xs2 xs3 xs4 xs5).2.2.2.2.2.2.2.1)

theorem scover0_B_5 (y : S1x256.Idx) :
    ∃ pc ∈ (runB c a hc0 hc1 x0 x1 xs0 xs1 xs2 xs3 xs4 xs5).2.2.2.2.2.2.2.2.1, y ∈ pc.1.set :=
  View.cover_of_tiledL (runB c a hc0 hc1 x0 x1 xs0 xs1 xs2 xs3 xs4 xs5).2.2.2.2.2.2.2.2.1 S1x256.size (by sl_kernel_rfl) y

def sout0_B_5 : Vec F S1x256 .f32 :=
  VS0_5.read (Elt F) (VS0_5.writes (Elt F) VS0_5.junk (runB c a hc0 hc1 x0 x1 xs0 xs1 xs2 xs3 xs4 xs5).2.2.2.2.2.2.2.2.1)

/-- What a middle point leaves in the three output windows and the six carried scratches. -/
def outs0_B : Outs F :=
  (out0_B_2 c a hc0 hc1 x0 x1 xs0 xs1 xs2 xs3 xs4 xs5,
    out0_B_3 c a hc0 hc1 x0 x1 xs0 xs1 xs2 xs3 xs4 xs5,
    out0_B_4 c a hc0 hc1 x0 x1 xs0 xs1 xs2 xs3 xs4 xs5,
    sout0_B_0 c a hc0 hc1 x0 x1 xs0 xs1 xs2 xs3 xs4 xs5,
    sout0_B_1 c a hc0 hc1 x0 x1 xs0 xs1 xs2 xs3 xs4 xs5,
    sout0_B_2 c a hc0 hc1 x0 x1 xs0 xs1 xs2 xs3 xs4 xs5,
    sout0_B_3 c a hc0 hc1 x0 x1 xs0 xs1 xs2 xs3 xs4 xs5,
    sout0_B_4 c a hc0 hc1 x0 x1 xs0 xs1 xs2 xs3 xs4 xs5,
    sout0_B_5 c a hc0 hc1 x0 x1 xs0 xs1 xs2 xs3 xs4 xs5)

end CaseB

section CaseC

variable (c : Dev nD) (a : Operands) (hc0 : ¬cond0_0 a.i) (hc1 : cond0_1 a.i)
  (x0 : Vec F S512x256 .f32) (x1 : Vec F S512x256 .f32) (xs0 : Vec F S1x1 .f32) (xs1 : Vec F S1x1 .f32) (xs2 : Vec F S1x1 .f32) (xs3 : Vec F S1x1 .f32) (xs4 : Vec F S1x256 .f32) (xs5 : Vec F S1x256 .f32)

theorem cover0_C_2 (y : S1x4.Idx) :
    ∃ pc ∈ (runC c a hc0 hc1 x0 x1 xs0 xs1 xs2 xs3 xs4 xs5).1, y ∈ pc.1.set :=
  View.cover_of_tiledL (runC c a hc0 hc1 x0 x1 xs0 xs1 xs2 xs3 xs4 xs5).1 S1x4.size (by sl_kernel_rfl) y

def out0_C_2 : Vec F S1x4 .f32 :=
  VO0_2.read (Elt F) (VO0_2.writes (Elt F) VO0_2.junk (runC c a hc0 hc1 x0 x1 xs0 xs1 xs2 xs3 xs4 xs5).1)

theorem cover0_C_3 (y : S1x256.Idx) :
    ∃ pc ∈ (runC c a hc0 hc1 x0 x1 xs0 xs1 xs2 xs3 xs4 xs5).2.1, y ∈ pc.1.set :=
  View.cover_of_tiledL (runC c a hc0 hc1 x0 x1 xs0 xs1 xs2 xs3 xs4 xs5).2.1 S1x256.size (by sl_kernel_rfl) y

def out0_C_3 : Vec F S1x256 .f32 :=
  VO0_3.read (Elt F) (VO0_3.writes (Elt F) VO0_3.junk (runC c a hc0 hc1 x0 x1 xs0 xs1 xs2 xs3 xs4 xs5).2.1)

theorem cover0_C_4 (y : S1x256.Idx) :
    ∃ pc ∈ (runC c a hc0 hc1 x0 x1 xs0 xs1 xs2 xs3 xs4 xs5).2.2.1, y ∈ pc.1.set :=
  View.cover_of_tiledL (runC c a hc0 hc1 x0 x1 xs0 xs1 xs2 xs3 xs4 xs5).2.2.1 S1x256.size (by sl_kernel_rfl) y

def out0_C_4 : Vec F S1x256 .f32 :=
  VO0_4.read (Elt F) (VO0_4.writes (Elt F) VO0_4.junk (runC c a hc0 hc1 x0 x1 xs0 xs1 xs2 xs3 xs4 xs5).2.2.1)

theorem scover0_C_0 (y : S1x1.Idx) :
    ∃ pc ∈ (runC c a hc0 hc1 x0 x1 xs0 xs1 xs2 xs3 xs4 xs5).2.2.2.1, y ∈ pc.1.set :=
  View.cover_of_tiledL (runC c a hc0 hc1 x0 x1 xs0 xs1 xs2 xs3 xs4 xs5).2.2.2.1 S1x1.size (by sl_kernel_rfl) y

def sout0_C_0 : Vec F S1x1 .f32 :=
  VS0_0.read (Elt F) (VS0_0.writes (Elt F) VS0_0.junk (runC c a hc0 hc1 x0 x1 xs0 xs1 xs2 xs3 xs4 xs5).2.2.2.1)

theorem scover0_C_1 (y : S1x1.Idx) :
    ∃ pc ∈ (runC c a hc0 hc1 x0 x1 xs0 xs1 xs2 xs3 xs4 xs5).2.2.2.2.1, y ∈ pc.1.set :=
  View.cover_of_tiledL (runC c a hc0 hc1 x0 x1 xs0 xs1 xs2 xs3 xs4 xs5).2.2.2.2.1 S1x1.size (by sl_kernel_rfl) y

def sout0_C_1 : Vec F S1x1 .f32 :=
  VS0_1.read (Elt F) (VS0_1.writes (Elt F) VS0_1.junk (runC c a hc0 hc1 x0 x1 xs0 xs1 xs2 xs3 xs4 xs5).2.2.2.2.1)

theorem scover0_C_2 (y : S1x1.Idx) :
    ∃ pc ∈ (runC c a hc0 hc1 x0 x1 xs0 xs1 xs2 xs3 xs4 xs5).2.2.2.2.2.1, y ∈ pc.1.set :=
  View.cover_of_tiledL (runC c a hc0 hc1 x0 x1 xs0 xs1 xs2 xs3 xs4 xs5).2.2.2.2.2.1 S1x1.size (by sl_kernel_rfl) y

def sout0_C_2 : Vec F S1x1 .f32 :=
  VS0_2.read (Elt F) (VS0_2.writes (Elt F) VS0_2.junk (runC c a hc0 hc1 x0 x1 xs0 xs1 xs2 xs3 xs4 xs5).2.2.2.2.2.1)

theorem scover0_C_3 (y : S1x1.Idx) :
    ∃ pc ∈ (runC c a hc0 hc1 x0 x1 xs0 xs1 xs2 xs3 xs4 xs5).2.2.2.2.2.2.1, y ∈ pc.1.set :=
  View.cover_of_tiledL (runC c a hc0 hc1 x0 x1 xs0 xs1 xs2 xs3 xs4 xs5).2.2.2.2.2.2.1 S1x1.size (by sl_kernel_rfl) y

def sout0_C_3 : Vec F S1x1 .f32 :=
  VS0_3.read (Elt F) (VS0_3.writes (Elt F) VS0_3.junk (runC c a hc0 hc1 x0 x1 xs0 xs1 xs2 xs3 xs4 xs5).2.2.2.2.2.2.1)

theorem scover0_C_4 (y : S1x256.Idx) :
    ∃ pc ∈ (runC c a hc0 hc1 x0 x1 xs0 xs1 xs2 xs3 xs4 xs5).2.2.2.2.2.2.2.1, y ∈ pc.1.set :=
  View.cover_of_tiledL (runC c a hc0 hc1 x0 x1 xs0 xs1 xs2 xs3 xs4 xs5).2.2.2.2.2.2.2.1 S1x256.size (by sl_kernel_rfl) y

def sout0_C_4 : Vec F S1x256 .f32 :=
  VS0_4.read (Elt F) (VS0_4.writes (Elt F) VS0_4.junk (runC c a hc0 hc1 x0 x1 xs0 xs1 xs2 xs3 xs4 xs5).2.2.2.2.2.2.2.1)

theorem scover0_C_5 (y : S1x256.Idx) :
    ∃ pc ∈ (runC c a hc0 hc1 x0 x1 xs0 xs1 xs2 xs3 xs4 xs5).2.2.2.2.2.2.2.2.1, y ∈ pc.1.set :=
  View.cover_of_tiledL (runC c a hc0 hc1 x0 x1 xs0 xs1 xs2 xs3 xs4 xs5).2.2.2.2.2.2.2.2.1 S1x256.size (by sl_kernel_rfl) y

def sout0_C_5 : Vec F S1x256 .f32 :=
  VS0_5.read (Elt F) (VS0_5.writes (Elt F) VS0_5.junk (runC c a hc0 hc1 x0 x1 xs0 xs1 xs2 xs3 xs4 xs5).2.2.2.2.2.2.2.2.1)

/-- What the last point leaves in the three output windows and the six carried scratches. -/
def outs0_C : Outs F :=
  (out0_C_2 c a hc0 hc1 x0 x1 xs0 xs1 xs2 xs3 xs4 xs5,
    out0_C_3 c a hc0 hc1 x0 x1 xs0 xs1 xs2 xs3 xs4 xs5,
    out0_C_4 c a hc0 hc1 x0 x1 xs0 xs1 xs2 xs3 xs4 xs5,
    sout0_C_0 c a hc0 hc1 x0 x1 xs0 xs1 xs2 xs3 xs4 xs5,
    sout0_C_1 c a hc0 hc1 x0 x1 xs0 xs1 xs2 xs3 xs4 xs5,
    sout0_C_2 c a hc0 hc1 x0 x1 xs0 xs1 xs2 xs3 xs4 xs5,
    sout0_C_3 c a hc0 hc1 x0 x1 xs0 xs1 xs2 xs3 xs4 xs5,
    sout0_C_4 c a hc0 hc1 x0 x1 xs0 xs1 xs2 xs3 xs4 xs5,
    sout0_C_5 c a hc0 hc1 x0 x1 xs0 xs1 xs2 xs3 xs4 xs5)

end CaseC

/-- The nine values a point leaves: its three outputs and the six carried scratches. -/
def outsAt0 (c : Dev nD) : (n : ℕ) → n < cfg0.N → Outs F
  | 0, hn =>
    outs0_A c (operandsAt ⟨0, hn⟩) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩)
  | n + 1, hn =>
    if h0 : (n + 1) % 8 = 0 then
      False.elim (by have hN : n + 1 < 8 := lt_of_lt_of_eq hn (show cfg0.N = 8 from N_0); omega)
    else
      if h1 : (n + 1) % 8 = 7 then
        outs0_C c (operandsAt ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2
      else
        outs0_B c (operandsAt ⟨n + 1, hn⟩) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2

theorem outsAt0_A (c : Dev nD) (t : Fin cfg0.N) (h0 : t.val % 8 = 0) (h1 : ¬t.val % 8 = 7) :
    outsAt0 m c t.val t.isLt = outs0_A c (operandsAt t) ((hcond0_0 t).mpr h0) (fun h => h1 ((hcond0_1 t).mp h)) (iblk m c 0 t) (iblk m c 1 t) := by
  obtain ⟨n, hn⟩ := t
  cases n with
  | zero => exact rfl
  | succ n => exfalso; have hN : n + 1 < 8 := lt_of_lt_of_eq hn (show cfg0.N = 8 from N_0); (try dsimp only at h0); omega

theorem outsAt0_B (c : Dev nD) (t : Fin cfg0.N) (h0 : ¬t.val % 8 = 0) (h1 : ¬t.val % 8 = 7) :
    outsAt0 m c t.val t.isLt = outs0_B c (operandsAt t) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = outs0_C c (operandsAt t) (fun h => h0 ((hcond0_0 t).mp h)) ((hcond0_1 t).mpr h1) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 := by
  obtain ⟨n, hn⟩ := t
  cases n with
  | zero => exact (by exfalso; (try dsimp only at h0); exact absurd (Nat.zero_mod _) h0)
  | succ n => exact (dif_neg h0).trans ((dif_pos h1).trans rfl)

/-- The region invariant: before point `n` the six scratches hold what point `n − 1` left (anything before the first). -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.1) ∗ owns (c : Thread nD τ) scM0_1 fullShare ((outsAt0 m c n hn).2.2.2.2.1) ∗ owns (c : Thread nD τ) scM0_2 fullShare ((outsAt0 m c n hn).2.2.2.2.2.1) ∗ owns (c : Thread nD τ) scM0_3 fullShare ((outsAt0 m c n hn).2.2.2.2.2.2.1) ∗ owns (c : Thread nD τ) scM0_4 fullShare ((outsAt0 m c n hn).2.2.2.2.2.2.2.1) ∗ owns (c : Thread nD τ) scM0_5 fullShare ((outsAt0 m c n hn).2.2.2.2.2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2.1) ∗ owns (c : Thread nD τ) scM0_1 fullShare ((outsAt0 m c n hn).2.2.2.2.1) ∗ owns (c : Thread nD τ) scM0_2 fullShare ((outsAt0 m c n hn).2.2.2.2.2.1) ∗ owns (c : Thread nD τ) scM0_3 fullShare ((outsAt0 m c n hn).2.2.2.2.2.2.1) ∗ owns (c : Thread nD τ) scM0_4 fullShare ((outsAt0 m c n hn).2.2.2.2.2.2.2.1) ∗ owns (c : Thread nD τ) scM0_5 fullShare ((outsAt0 m c n hn).2.2.2.2.2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.1) ∗ owns (c : Thread nD τ) scM0_1 fullShare ((outsAt0 m c (n - 1) (by omega)).2.2.2.2.1) ∗ owns (c : Thread nD τ) scM0_2 fullShare ((outsAt0 m c (n - 1) (by omega)).2.2.2.2.2.1) ∗ owns (c : Thread nD τ) scM0_3 fullShare ((outsAt0 m c (n - 1) (by omega)).2.2.2.2.2.2.1) ∗ owns (c : Thread nD τ) scM0_4 fullShare ((outsAt0 m c (n - 1) (by omega)).2.2.2.2.2.2.2.1) ∗ owns (c : Thread nD τ) scM0_5 fullShare ((outsAt0 m c (n - 1) (by omega)).2.2.2.2.2.2.2.2)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
    | ⟨4, _⟩ => (outsAt0 m c t.val t.isLt).2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]
theorem after0_4 (c : Dev nD) (t : Fin cfg0.N) : (dats m 0 c).after 4 t = (outsAt0 m c t.val t.isLt).2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

end Cert.KernelIdeal.Hand

end
-- ==== Proof.KBodyA.lean ====
import proofs.«167831_j66408784331046_1_alg».proof.Proof.KFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 64000000 in

theorem sound_body_A (c : Dev nD) (t : Fin cfg0.N) (h0 : t.val % 8 = 0) (h1 : ¬t.val % 8 = 7) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 8 := lt_of_lt_of_eq t.isLt (show cfg0.N = 8 from N_0)
  have hz : t.val = 0 := by omega
  rw [PhiS_castSucc m c t, PhiS_zero m c _ _ hz, PhiA0_eq]
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [Dat.leavesExact_idle (dats m 0 c) 2 t (idleAt0_2_A t ((hcond0_0 t).mpr h0) (fun h => h1 ((hcond0_1 t).mp h))) (noFlush0_2_A t ((hcond0_0 t).mpr h0) (fun h => h1 ((hcond0_1 t).mp h)))]
  rw [Dat.leavesExact_idle (dats m 0 c) 3 t (idleAt0_3_A t ((hcond0_0 t).mpr h0) (fun h => h1 ((hcond0_1 t).mp h))) (noFlush0_3_A t ((hcond0_0 t).mpr h0) (fun h => h1 ((hcond0_1 t).mp h)))]
  rw [Dat.leavesExact_idle (dats m 0 c) 4 t (idleAt0_4_A t ((hcond0_0 t).mpr h0) (fun h => h1 ((hcond0_1 t).mp h))) (noFlush0_4_A t ((hcond0_0 t).mpr h0) (fun h => h1 ((hcond0_1 t).mp h)))]
  have e := outsAt0_A m c t h0 h1
  generalize outsAt0 m c t.val t.isLt = T at e ⊢
  obtain ⟨o2, o3, o4, s0, s1, s2, s3, s4, s5⟩ := T
  simp only [outs0_A, Prod.mk.injEq] at e
  obtain ⟨rfl, rfl, rfl, rfl, rfl, rfl, rfl, rfl, rfl⟩ := e
  unfold sout0_A_0 sout0_A_1 sout0_A_2 sout0_A_3 sout0_A_4 sout0_A_5; (try dsimp only)
  iintro ⟨⟨⟨HS0, HS1, HS2, HS3, HS4, HS5⟩, Hg⟩, Ho, ⟨%d0, H0⟩, ⟨%d1, H1⟩, ⟨%d2, H2⟩, ⟨%d3, H3⟩, ⟨%d4, H4⟩⟩
  iapply ((runA c (operandsAt t) ((hcond0_0 t).mpr h0) (fun h => h1 ((hcond0_1 t).mp h)) (iblk m c 0 t) (iblk m c 1 t)).2.2.2.2.2.2.2.2.2 _ _ _ Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, ⟨%es0, HS0⟩, ⟨%es1, HS1⟩, ⟨%es2, HS2⟩, ⟨%es3, HS3⟩, ⟨%es4, HS4⟩, ⟨%es5, HS5⟩⟩
  isplitl [HS0 HS1 HS2 HS3 HS4 HS5 Hg]
  · isplitl [HS0 HS1 HS2 HS3 HS4 HS5]
    · isplitl [HS0]
      · unfold owns; iexists _; isplitr
        swap; · iexact HS0
        ipureintro; exact View.read_writes_of_cover _ _ _ _ _ (scover0_A_0 c (operandsAt t) _ _ _ _)
      isplitl [HS1]
      · unfold owns; iexists _; isplitr
        swap; · iexact HS1
        ipureintro; exact View.read_writes_of_cover _ _ _ _ _ (scover0_A_1 c (operandsAt t) _ _ _ _)
      isplitl [HS2]
      · unfold owns; iexists _; isplitr
        swap; · iexact HS2
        ipureintro; exact View.read_writes_of_cover _ _ _ _ _ (scover0_A_2 c (operandsAt t) _ _ _ _)
      isplitl [HS3]
      · unfold owns; iexists _; isplitr
        swap; · iexact HS3
        ipureintro; exact View.read_writes_of_cover _ _ _ _ _ (scover0_A_3 c (operandsAt t) _ _ _ _)
      isplitl [HS4]
      · unfold owns; iexists _; isplitr
        swap; · iexact HS4
        ipureintro; exact View.read_writes_of_cover _ _ _ _ _ (scover0_A_4 c (operandsAt t) _ _ _ _)
      unfold owns; iexists _; isplitr
      swap; · iexact HS5
      ipureintro; exact View.read_writes_of_cover _ _ _ _ _ (scover0_A_5 c (operandsAt t) _ _ _ _)
    iexact Hg
  isplitl [Ho]; · iexact Ho
  isplitl [H0]; · iexact H0
  isplitl [H1]; · iexact H1
  isplitl [H2]; · iexists _; iexact H2
  isplitl [H3]; · iexists _; iexact H3
  iexists _; iexact H4

end Cert.KernelIdeal.Hand

end
-- ==== Proof.KBodyB.lean ====
import proofs.«167831_j66408784331046_1_alg».proof.Proof.KFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 64000000 in

theorem sound_body_B (c : Dev nD) (t : Fin cfg0.N) (h0 : ¬t.val % 8 = 0) (h1 : ¬t.val % 8 = 7) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 8 := lt_of_lt_of_eq t.isLt (show cfg0.N = 8 from N_0)
  have hz : t.val ≠ 0 := by omega
  rw [PhiS_castSucc m c t, PhiS_pos m c _ _ hz]
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [Dat.leavesExact_idle (dats m 0 c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
  rw [Dat.leavesExact_idle (dats m 0 c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
  rw [Dat.leavesExact_idle (dats m 0 c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
  have e := outsAt0_B m c t h0 h1
  generalize outsAt0 m c t.val t.isLt = T at e ⊢
  generalize outsAt0 m c (t.val - 1) (Nat.lt_of_le_of_lt (Nat.sub_le _ _) t.isLt) = prev at e ⊢
  obtain ⟨p2, p3, p4, q0, q1, q2, q3, q4, q5⟩ := prev
  obtain ⟨o2, o3, o4, s0, s1, s2, s3, s4, s5⟩ := T
  simp only [outs0_B, Prod.mk.injEq] at e
  obtain ⟨rfl, rfl, rfl, rfl, rfl, rfl, rfl, rfl, rfl⟩ := e
  unfold sout0_B_0 sout0_B_1 sout0_B_2 sout0_B_3 sout0_B_4 sout0_B_5; (try dsimp only)
  iintro ⟨⟨⟨HS0, HS1, HS2, HS3, HS4, HS5⟩, Hg⟩, Ho, ⟨%d0, H0⟩, ⟨%d1, H1⟩, ⟨%d2, H2⟩, ⟨%d3, H3⟩, ⟨%d4, H4⟩⟩
  iapply ((runB c (operandsAt t) (fun h => h0 ((hcond0_0 t).mp h)) (fun h => h1 ((hcond0_1 t).mp h)) (iblk m c 0 t) (iblk m c 1 t) _ _ _ _ _ _).2.2.2.2.2.2.2.2.2 _ _ _ Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, ⟨%es0, HS0⟩, ⟨%es1, HS1⟩, ⟨%es2, HS2⟩, ⟨%es3, HS3⟩, ⟨%es4, HS4⟩, ⟨%es5, HS5⟩⟩
  isplitl [HS0 HS1 HS2 HS3 HS4 HS5 Hg]
  · isplitl [HS0 HS1 HS2 HS3 HS4 HS5]
    · isplitl [HS0]
      · unfold owns; iexists _; isplitr
        swap; · iexact HS0
        ipureintro; exact View.read_writes_of_cover _ _ _ _ _ (scover0_B_0 c (operandsAt t) _ _ _ _ _ _ _ _ _ _)
      isplitl [HS1]
      · unfold owns; iexists _; isplitr
        swap; · iexact HS1
        ipureintro; exact View.read_writes_of_cover _ _ _ _ _ (scover0_B_1 c (operandsAt t) _ _ _ _ _ _ _ _ _ _)
      isplitl [HS2]
      · unfold owns; iexists _; isplitr
        swap; · iexact HS2
        ipureintro; exact View.read_writes_of_cover _ _ _ _ _ (scover0_B_2 c (operandsAt t) _ _ _ _ _ _ _ _ _ _)
      isplitl [HS3]
      · unfold owns; iexists _; isplitr
        swap; · iexact HS3
        ipureintro; exact View.read_writes_of_cover _ _ _ _ _ (scover0_B_3 c (operandsAt t) _ _ _ _ _ _ _ _ _ _)
      isplitl [HS4]
      · unfold owns; iexists _; isplitr
        swap; · iexact HS4
        ipureintro; exact View.read_writes_of_cover _ _ _ _ _ (scover0_B_4 c (operandsAt t) _ _ _ _ _ _ _ _ _ _)
      unfold owns; iexists _; isplitr
      swap; · iexact HS5
      ipureintro; exact View.read_writes_of_cover _ _ _ _ _ (scover0_B_5 c (operandsAt t) _ _ _ _ _ _ _ _ _ _)
    iexact Hg
  isplitl [Ho]; · iexact Ho
  isplitl [H0]; · iexact H0
  isplitl [H1]; · iexact H1
  isplitl [H2]; · iexists _; iexact H2
  isplitl [H3]; · iexists _; iexact H3
  iexists _; iexact H4

end Cert.KernelIdeal.Hand

end
-- ==== Proof.KBodyC.lean ====
import proofs.«167831_j66408784331046_1_alg».proof.Proof.KFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 64000000 in

theorem sound_body_C (c : Dev nD) (t : Fin cfg0.N) (h0 : ¬t.val % 8 = 0) (h1 : t.val % 8 = 7) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 8 := lt_of_lt_of_eq t.isLt (show cfg0.N = 8 from N_0)
  have hz : t.val ≠ 0 := by omega
  rw [PhiS_castSucc m c t, PhiS_pos m c _ _ hz]
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2_C t (fun h => h0 ((hcond0_0 t).mp h)) ((hcond0_1 t).mpr h1)], after0_2]
  rw [show (dats m 0 c).leavesExact 3 t = owns (c : Thread nD τ) (ms0_3 t) fullShare ((dats m 0 c).after 3 t) from by
      unfold Dat.leavesExact; rw [liveAt0_3_C t (fun h => h0 ((hcond0_0 t).mp h)) ((hcond0_1 t).mpr h1)], after0_3]
  rw [show (dats m 0 c).leavesExact 4 t = owns (c : Thread nD τ) (ms0_4 t) fullShare ((dats m 0 c).after 4 t) from by
      unfold Dat.leavesExact; rw [liveAt0_4_C t (fun h => h0 ((hcond0_0 t).mp h)) ((hcond0_1 t).mpr h1)], after0_4]
  have e := outsAt0_C m c t h0 h1
  generalize outsAt0 m c t.val t.isLt = T at e ⊢
  generalize outsAt0 m c (t.val - 1) (Nat.lt_of_le_of_lt (Nat.sub_le _ _) t.isLt) = prev at e ⊢
  obtain ⟨p2, p3, p4, q0, q1, q2, q3, q4, q5⟩ := prev
  obtain ⟨o2, o3, o4, s0, s1, s2, s3, s4, s5⟩ := T
  simp only [outs0_C, Prod.mk.injEq] at e
  obtain ⟨rfl, rfl, rfl, rfl, rfl, rfl, rfl, rfl, rfl⟩ := e
  unfold out0_C_2 out0_C_3 out0_C_4 sout0_C_0 sout0_C_1 sout0_C_2 sout0_C_3 sout0_C_4 sout0_C_5; (try dsimp only)
  iintro ⟨⟨⟨HS0, HS1, HS2, HS3, HS4, HS5⟩, Hg⟩, Ho, ⟨%d0, H0⟩, ⟨%d1, H1⟩, ⟨%d2, H2⟩, ⟨%d3, H3⟩, ⟨%d4, H4⟩⟩
  iapply ((runC c (operandsAt t) (fun h => h0 ((hcond0_0 t).mp h)) ((hcond0_1 t).mpr h1) (iblk m c 0 t) (iblk m c 1 t) _ _ _ _ _ _).2.2.2.2.2.2.2.2.2 Set.univ _)
  isplitl [H0]; · iexact H0
  isplitl [H1]; · iexact H1
  isplitl [H2]; · iexists _; iexact H2
  isplitl [H3]; · iexists _; iexact H3
  isplitl [H4]; · iexists _; iexact H4
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, ⟨%e2, H2⟩, ⟨%e3, H3⟩, ⟨%e4, H4⟩, ⟨%es0, HS0⟩, ⟨%es1, HS1⟩, ⟨%es2, HS2⟩, ⟨%es3, HS3⟩, ⟨%es4, HS4⟩, ⟨%es5, HS5⟩⟩
  isplitl [HS0 HS1 HS2 HS3 HS4 HS5 Hg]
  · isplitl [HS0 HS1 HS2 HS3 HS4 HS5]
    · isplitl [HS0]
      · unfold owns; iexists _; isplitr
        swap; · iexact HS0
        ipureintro; exact View.read_writes_of_cover _ _ _ _ _ (scover0_C_0 c (operandsAt t) _ _ _ _ _ _ _ _ _ _)
      isplitl [HS1]
      · unfold owns; iexists _; isplitr
        swap; · iexact HS1
        ipureintro; exact View.read_writes_of_cover _ _ _ _ _ (scover0_C_1 c (operandsAt t) _ _ _ _ _ _ _ _ _ _)
      isplitl [HS2]
      · unfold owns; iexists _; isplitr
        swap; · iexact HS2
        ipureintro; exact View.read_writes_of_cover _ _ _ _ _ (scover0_C_2 c (operandsAt t) _ _ _ _ _ _ _ _ _ _)
      isplitl [HS3]
      · unfold owns; iexists _; isplitr
        swap; · iexact HS3
        ipureintro; exact View.read_writes_of_cover _ _ _ _ _ (scover0_C_3 c (operandsAt t) _ _ _ _ _ _ _ _ _ _)
      isplitl [HS4]
      · unfold owns; iexists _; isplitr
        swap; · iexact HS4
        ipureintro; exact View.read_writes_of_cover _ _ _ _ _ (scover0_C_4 c (operandsAt t) _ _ _ _ _ _ _ _ _ _)
      unfold owns; iexists _; isplitr
      swap; · iexact HS5
      ipureintro; exact View.read_writes_of_cover _ _ _ _ _ (scover0_C_5 c (operandsAt t) _ _ _ _ _ _ _ _ _ _)
    iexact Hg
  isplitl [Ho]; · iexact Ho
  isplitl [H0]; · iexact H0
  isplitl [H1]; · iexact H1
  isplitl [H2]
  · unfold owns; iexists _; isplitr
    swap; · iexact H2
    ipureintro; exact View.read_writes_of_cover _ _ _ _ _ (cover0_C_2 c (operandsAt t) _ _ _ _ _ _ _ _ _ _)
  isplitl [H3]
  · unfold owns; iexists _; isplitr
    swap; · iexact H3
    ipureintro; exact View.read_writes_of_cover _ _ _ _ _ (cover0_C_3 c (operandsAt t) _ _ _ _ _ _ _ _ _ _)
  unfold owns; iexists _; isplitr
  swap; · iexact H4
  ipureintro; exact View.read_writes_of_cover _ _ _ _ _ (cover0_C_4 c (operandsAt t) _ _ _ _ _ _ _ _ _ _)

end Cert.KernelIdeal.Hand

end
-- ==== Proof.KBody.lean ====
import proofs.«167831_j66408784331046_1_alg».proof.Proof.KBodyA
import proofs.«167831_j66408784331046_1_alg».proof.Proof.KBodyB
import proofs.«167831_j66408784331046_1_alg».proof.Proof.KBodyC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem sound_body (c : Dev nD) (t : Fin cfg0.N) :
    bodyPre m c t ⊢ wp frame (wpE (defs₀ (F := F)) Variants.none c none) Set.univ (bodyAt0 t) (fun _ => bodyPost m c t) := by
  have hN : t.val < 8 := lt_of_lt_of_eq t.isLt (show cfg0.N = 8 from N_0)
  by_cases h0 : t.val % 8 = 0
  · by_cases h1 : t.val % 8 = 7
    · exfalso; omega
    · exact sound_body_A m c t h0 h1
  · by_cases h1 : t.val % 8 = 7
    · exact sound_body_C m c t h0 h1
    · exact sound_body_B m c t h0 h1

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5⟩, Hg⟩
  isplitl [HS0 HS1 HS2 HS3 HS4 HS5]
  · isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5
  iexact Hg

theorem hout (c : Dev nD) : (dats m 0 c).Φ (Fin.last cfg0.N) ⊢ Pipeline.ΦA spec0 c :=
  Phi_out m c _ (by rw [Fin.val_last]; have : cfg0.N = 8 := N_0; omega)

set_option maxHeartbeats 40000000 in
set_option backward.isDefEq.respectTransparency.types false in

theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

set_option maxHeartbeats 40000000 in

/-- Neither input array is changed by @main, at any float family. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0) ∧ r.2.mem ((c.tc : Thread nD τ).loc main_arg1) = m ((c.tc : Thread nD τ).loc main_arg1)) :=
  frame_of m ρ (dats m) (A_eq m) (run_main m ρ)

end Cert.KernelIdeal.Hand

end
-- ==== Proof.SameText.lean ====
import proofs.«167831_j66408784331046_1_alg».proof.Defs
import proofs.«167831_j66408784331046_1_alg».proof.Proof.Gen.Kernel
import proofs.«167831_j66408784331046_1_alg».proof.Proof.Gen.KernelIdeal
import proofs.«167831_j66408784331046_1_alg».proof.Proof.Gen.Pre_finite_inputs
import proofs.«167831_j66408784331046_1_alg».proof.Proof.KBody

noncomputable section

namespace Cert.SameText

open Idealize.ShloMosaic Idealize.SL.Sem

variable {F : FTy → Type} [FloatOps F]

/-- Nothing was rewritten in the idealized kernel, so the two printed programs are one text: the kernel tables agree
    label by label, -/
theorem defs₀_eq : Cert.Kernel.defs₀ (F := F) = Cert.KernelIdeal.defs₀ (F := F) := by
  unfold Cert.Kernel.defs₀ Cert.KernelIdeal.defs₀
  congr 1
  funext l a
  match l, a with
  | 0, (t, s) => rfl
  | ⟨_ + 1, h⟩, _ => exact absurd h (Nat.not_lt.2 (Nat.le_add_left _ _))

/-- hence the whole tables, -/
theorem defs_eq : Cert.Kernel.defs (F := F) = Cert.KernelIdeal.defs (F := F) := by
  unfold Cert.Kernel.defs Cert.KernelIdeal.defs
  rw [defs₀_eq]
  rfl

set_option maxHeartbeats 8000000 in
/-- and @main, statement by statement. -/
theorem main_eq : Cert.Kernel.main (F := F) = Cert.KernelIdeal.main (F := F) := rfl

/-- So the frame of that text, proved at any float family, read at `Bits` is the frame of the kernel as printed. -/
theorem frame_kernel : Cert.frame_Kernel := fun m ρ _ => by
  have h := Cert.KernelIdeal.Hand.frame (F := Bits) m ρ
  rw [← defs_eq, ← main_eq] at h
  exact h

end Cert.SameText

end
-- ==== Proof.KPieces.lean ====
import proofs.«167831_j66408784331046_1_alg».proof.Proof.KFrame
import Idealize.ShloMosaic.Lib.Pipeline.Value
import Idealize.ShloMosaic.Lib.ValueIdx
import Idealize.ShloMosaic.Lib.Tactic

set_option maxRecDepth 16384

noncomputable section

namespace Cert.KernelIdeal.HandValue

open Cert.KernelIdeal Cert.KernelIdeal.Gen Cert.KernelIdeal.Hand Idealize.ShloMosaic Idealize.ShloMosaic.ValueIdx
open Idealize.ShloMosaic.TcCoe Idealize.SL.Sem

variable {F : FTy → Type} [FloatOps F]

theorem pieces_hz : (![0, 0] : Fin 2 → Nat) = fun _ => 0 := funext fun a => by fin_cases a <;> rfl

section CaseA

variable (c : Dev nD) (a : Operands) (hc0 : cond0_0 a.i) (hc1 : ¬cond0_1 a.i)
  (x0 : Vec F S512x256 .f32) (x1 : Vec F S512x256 .f32)

/-- Each carried value and output of a case, as the body's arithmetic on the two blocks and the previous carried values. -/
theorem sout0_A_0_eq :
    sout0_A_0 c a hc0 hc1 x0 x1 = k0_pay17 x0 (k0_pay7 (F := F)) := by
  unfold sout0_A_0
  rw [View.read_writes_eq_canon _ _ _ (scover0_A_0 c a hc0 hc1 x0 x1)]
  unfold runA kernelRun0_A
  dsimp only
  sl_unfold_words
  rw [View.canon_cons_unit_zero (S := S1x1) pieces_hz]
  simp only [View.readAt_eq_ld, a.harg1.read_unread, a.harg2.read_unread, a.harg3.read_unread, a.harg4.read_unread, a.harg5.read_unread, a.harg6.read_unread, a.harg7.read_unread, a.harg8.read_unread, a.harg9.read_unread, a.harg10.read_unread, a.harg11.read_unread,
    View.ld_unit_zero (S := S512x256) pieces_hz, View.ld_unit_zero (S := S1x1) pieces_hz, View.ld_unit_zero (S := S1x256) pieces_hz, View.ld_unit_zero (S := S1x4) pieces_hz,
    View.readCov_unit_zero (S := S1x1) _ pieces_hz, View.readCov_unit_zero (S := S1x256) _ pieces_hz]

theorem sout0_A_1_eq :
    sout0_A_1 c a hc0 hc1 x0 x1 = k0_pay1 (k0_pay18 x0 (k0_pay8 (F := F))) := by
  unfold sout0_A_1
  rw [View.read_writes_eq_canon _ _ _ (scover0_A_1 c a hc0 hc1 x0 x1)]
  unfold runA kernelRun0_A
  dsimp only
  sl_unfold_words
  rw [View.canon_cons_unit_zero (S := S1x1) pieces_hz]
  simp only [View.readAt_eq_ld, a.harg1.read_unread, a.harg2.read_unread, a.harg3.read_unread, a.harg4.read_unread, a.harg5.read_unread, a.harg6.read_unread, a.harg7.read_unread, a.harg8.read_unread, a.harg9.read_unread, a.harg10.read_unread, a.harg11.read_unread,
    View.ld_unit_zero (S := S512x256) pieces_hz, View.ld_unit_zero (S := S1x1) pieces_hz, View.ld_unit_zero (S := S1x256) pieces_hz, View.ld_unit_zero (S := S1x4) pieces_hz,
    View.readCov_unit_zero (S := S1x1) _ pieces_hz, View.readCov_unit_zero (S := S1x256) _ pieces_hz]

theorem sout0_A_2_eq :
    sout0_A_2 c a hc0 hc1 x0 x1 = k0_pay2 (k0_pay13 x0) (k0_pay9 (F := F)) := by
  unfold sout0_A_2
  rw [View.read_writes_eq_canon _ _ _ (scover0_A_2 c a hc0 hc1 x0 x1)]
  unfold runA kernelRun0_A
  dsimp only
  sl_unfold_words
  rw [View.canon_cons_unit_zero (S := S1x1) pieces_hz]
  simp only [View.readAt_eq_ld, a.harg1.read_unread, a.harg2.read_unread, a.harg3.read_unread, a.harg4.read_unread, a.harg5.read_unread, a.harg6.read_unread, a.harg7.read_unread, a.harg8.read_unread, a.harg9.read_unread, a.harg10.read_unread, a.harg11.read_unread,
    View.ld_unit_zero (S := S512x256) pieces_hz, View.ld_unit_zero (S := S1x1) pieces_hz, View.ld_unit_zero (S := S1x256) pieces_hz, View.ld_unit_zero (S := S1x4) pieces_hz,
    View.readCov_unit_zero (S := S1x1) _ pieces_hz, View.readCov_unit_zero (S := S1x256) _ pieces_hz]

theorem sout0_A_3_eq :
    sout0_A_3 c a hc0 hc1 x0 x1 = k0_pay3 (k0_pay14 x1) (k0_pay10 (F := F)) := by
  unfold sout0_A_3
  rw [View.read_writes_eq_canon _ _ _ (scover0_A_3 c a hc0 hc1 x0 x1)]
  unfold runA kernelRun0_A
  dsimp only
  sl_unfold_words
  rw [View.canon_cons_unit_zero (S := S1x1) pieces_hz]
  simp only [View.readAt_eq_ld, a.harg1.read_unread, a.harg2.read_unread, a.harg3.read_unread, a.harg4.read_unread, a.harg5.read_unread, a.harg6.read_unread, a.harg7.read_unread, a.harg8.read_unread, a.harg9.read_unread, a.harg10.read_unread, a.harg11.read_unread,
    View.ld_unit_zero (S := S512x256) pieces_hz, View.ld_unit_zero (S := S1x1) pieces_hz, View.ld_unit_zero (S := S1x256) pieces_hz, View.ld_unit_zero (S := S1x4) pieces_hz,
    View.readCov_unit_zero (S := S1x1) _ pieces_hz, View.readCov_unit_zero (S := S1x256) _ pieces_hz]

theorem sout0_A_4_eq :
    sout0_A_4 c a hc0 hc1 x0 x1 = k0_pay4 (k0_pay15 x0) (k0_pay11 (F := F)) := by
  unfold sout0_A_4
  rw [View.read_writes_eq_canon _ _ _ (scover0_A_4 c a hc0 hc1 x0 x1)]
  unfold runA kernelRun0_A
  dsimp only
  sl_unfold_words
  rw [View.canon_cons_unit_zero (S := S1x256) pieces_hz]
  simp only [View.readAt_eq_ld, a.harg1.read_unread, a.harg2.read_unread, a.harg3.read_unread, a.harg4.read_unread, a.harg5.read_unread, a.harg6.read_unread, a.harg7.read_unread, a.harg8.read_unread, a.harg9.read_unread, a.harg10.read_unread, a.harg11.read_unread,
    View.ld_unit_zero (S := S512x256) pieces_hz, View.ld_unit_zero (S := S1x1) pieces_hz, View.ld_unit_zero (S := S1x256) pieces_hz, View.ld_unit_zero (S := S1x4) pieces_hz,
    View.readCov_unit_zero (S := S1x1) _ pieces_hz, View.readCov_unit_zero (S := S1x256) _ pieces_hz]

theorem sout0_A_5_eq :
    sout0_A_5 c a hc0 hc1 x0 x1 = k0_pay5 (k0_pay16 x1) (k0_pay12 (F := F)) := by
  unfold sout0_A_5
  rw [View.read_writes_eq_canon _ _ _ (scover0_A_5 c a hc0 hc1 x0 x1)]
  unfold runA kernelRun0_A
  dsimp only
  sl_unfold_words
  rw [View.canon_cons_unit_zero (S := S1x256) pieces_hz]
  simp only [View.readAt_eq_ld, a.harg1.read_unread, a.harg2.read_unread, a.harg3.read_unread, a.harg4.read_unread, a.harg5.read_unread, a.harg6.read_unread, a.harg7.read_unread, a.harg8.read_unread, a.harg9.read_unread, a.harg10.read_unread, a.harg11.read_unread,
    View.ld_unit_zero (S := S512x256) pieces_hz, View.ld_unit_zero (S := S1x1) pieces_hz, View.ld_unit_zero (S := S1x256) pieces_hz, View.ld_unit_zero (S := S1x4) pieces_hz,
    View.readCov_unit_zero (S := S1x1) _ pieces_hz, View.readCov_unit_zero (S := S1x256) _ pieces_hz]

end CaseA

section CaseB

variable (c : Dev nD) (a : Operands) (hc0 : ¬cond0_0 a.i) (hc1 : ¬cond0_1 a.i)
  (x0 : Vec F S512x256 .f32) (x1 : Vec F S512x256 .f32) (xs0 : Vec F S1x1 .f32) (xs1 : Vec F S1x1 .f32) (xs2 : Vec F S1x1 .f32) (xs3 : Vec F S1x1 .f32) (xs4 : Vec F S1x256 .f32) (xs5 : Vec F S1x256 .f32)

theorem sout0_B_0_eq :
    sout0_B_0 c a hc0 hc1 x0 x1 xs0 xs1 xs2 xs3 xs4 xs5 = k0_pay17 x0 xs0 := by
  unfold sout0_B_0
  rw [View.read_writes_eq_canon _ _ _ (scover0_B_0 c a hc0 hc1 x0 x1 xs0 xs1 xs2 xs3 xs4 xs5)]
  unfold runB kernelRun0_B
  dsimp only
  sl_unfold_words
  rw [View.canon_unit_zero pieces_hz]
  simp only [View.readAt_eq_ld, a.harg1.read_unread, a.harg2.read_unread, a.harg3.read_unread, a.harg4.read_unread, a.harg5.read_unread, a.harg6.read_unread, a.harg7.read_unread, a.harg8.read_unread, a.harg9.read_unread, a.harg10.read_unread, a.harg11.read_unread,
    View.ld_unit_zero (S := S512x256) pieces_hz, View.ld_unit_zero (S := S1x1) pieces_hz, View.ld_unit_zero (S := S1x256) pieces_hz, View.ld_unit_zero (S := S1x4) pieces_hz]

theorem sout0_B_1_eq :
    sout0_B_1 c a hc0 hc1 x0 x1 xs0 xs1 xs2 xs3 xs4 xs5 = k0_pay1 (k0_pay18 x0 xs1) := by
  unfold sout0_B_1
  rw [View.read_writes_eq_canon _ _ _ (scover0_B_1 c a hc0 hc1 x0 x1 xs0 xs1 xs2 xs3 xs4 xs5)]
  unfold runB kernelRun0_B
  dsimp only
  sl_unfold_words
  rw [View.canon_unit_zero pieces_hz]
  simp only [View.readAt_eq_ld, a.harg1.read_unread, a.harg2.read_unread, a.harg3.read_unread, a.harg4.read_unread, a.harg5.read_unread, a.harg6.read_unread, a.harg7.read_unread, a.harg8.read_unread, a.harg9.read_unread, a.harg10.read_unread, a.harg11.read_unread,
    View.ld_unit_zero (S := S512x256) pieces_hz, View.ld_unit_zero (S := S1x1) pieces_hz, View.ld_unit_zero (S := S1x256) pieces_hz, View.ld_unit_zero (S := S1x4) pieces_hz]

theorem sout0_B_2_eq :
    sout0_B_2 c a hc0 hc1 x0 x1 xs0 xs1 xs2 xs3 xs4 xs5 = k0_pay2 (k0_pay13 x0) xs2 := by
  unfold sout0_B_2
  rw [View.read_writes_eq_canon _ _ _ (scover0_B_2 c a hc0 hc1 x0 x1 xs0 xs1 xs2 xs3 xs4 xs5)]
  unfold runB kernelRun0_B
  dsimp only
  sl_unfold_words
  rw [View.canon_unit_zero pieces_hz]
  simp only [View.readAt_eq_ld, a.harg1.read_unread, a.harg2.read_unread, a.harg3.read_unread, a.harg4.read_unread, a.harg5.read_unread, a.harg6.read_unread, a.harg7.read_unread, a.harg8.read_unread, a.harg9.read_unread, a.harg10.read_unread, a.harg11.read_unread,
    View.ld_unit_zero (S := S512x256) pieces_hz, View.ld_unit_zero (S := S1x1) pieces_hz, View.ld_unit_zero (S := S1x256) pieces_hz, View.ld_unit_zero (S := S1x4) pieces_hz]

theorem sout0_B_3_eq :
    sout0_B_3 c a hc0 hc1 x0 x1 xs0 xs1 xs2 xs3 xs4 xs5 = k0_pay3 (k0_pay14 x1) xs3 := by
  unfold sout0_B_3
  rw [View.read_writes_eq_canon _ _ _ (scover0_B_3 c a hc0 hc1 x0 x1 xs0 xs1 xs2 xs3 xs4 xs5)]
  unfold runB kernelRun0_B
  dsimp only
  sl_unfold_words
  rw [View.canon_unit_zero pieces_hz]
  simp only [View.readAt_eq_ld, a.harg1.read_unread, a.harg2.read_unread, a.harg3.read_unread, a.harg4.read_unread, a.harg5.read_unread, a.harg6.read_unread, a.harg7.read_unread, a.harg8.read_unread, a.harg9.read_unread, a.harg10.read_unread, a.harg11.read_unread,
    View.ld_unit_zero (S := S512x256) pieces_hz, View.ld_unit_zero (S := S1x1) pieces_hz, View.ld_unit_zero (S := S1x256) pieces_hz, View.ld_unit_zero (S := S1x4) pieces_hz]

theorem sout0_B_4_eq :
    sout0_B_4 c a hc0 hc1 x0 x1 xs0 xs1 xs2 xs3 xs4 xs5 = k0_pay4 (k0_pay15 x0) xs4 := by
  unfold sout0_B_4
  rw [View.read_writes_eq_canon _ _ _ (scover0_B_4 c a hc0 hc1 x0 x1 xs0 xs1 xs2 xs3 xs4 xs5)]
  unfold runB kernelRun0_B
  dsimp only
  sl_unfold_words
  rw [View.canon_unit_zero pieces_hz]
  simp only [View.readAt_eq_ld, a.harg1.read_unread, a.harg2.read_unread, a.harg3.read_unread, a.harg4.read_unread, a.harg5.read_unread, a.harg6.read_unread, a.harg7.read_unread, a.harg8.read_unread, a.harg9.read_unread, a.harg10.read_unread, a.harg11.read_unread,
    View.ld_unit_zero (S := S512x256) pieces_hz, View.ld_unit_zero (S := S1x1) pieces_hz, View.ld_unit_zero (S := S1x256) pieces_hz, View.ld_unit_zero (S := S1x4) pieces_hz]

theorem sout0_B_5_eq :
    sout0_B_5 c a hc0 hc1 x0 x1 xs0 xs1 xs2 xs3 xs4 xs5 = k0_pay5 (k0_pay16 x1) xs5 := by
  unfold sout0_B_5
  rw [View.read_writes_eq_canon _ _ _ (scover0_B_5 c a hc0 hc1 x0 x1 xs0 xs1 xs2 xs3 xs4 xs5)]
  unfold runB kernelRun0_B
  dsimp only
  sl_unfold_words
  rw [View.canon_unit_zero pieces_hz]
  simp only [View.readAt_eq_ld, a.harg1.read_unread, a.harg2.read_unread, a.harg3.read_unread, a.harg4.read_unread, a.harg5.read_unread, a.harg6.read_unread, a.harg7.read_unread, a.harg8.read_unread, a.harg9.read_unread, a.harg10.read_unread, a.harg11.read_unread,
    View.ld_unit_zero (S := S512x256) pieces_hz, View.ld_unit_zero (S := S1x1) pieces_hz, View.ld_unit_zero (S := S1x256) pieces_hz, View.ld_unit_zero (S := S1x4) pieces_hz]

end CaseB

section CaseC

variable (c : Dev nD) (a : Operands) (hc0 : ¬cond0_0 a.i) (hc1 : cond0_1 a.i)
  (x0 : Vec F S512x256 .f32) (x1 : Vec F S512x256 .f32) (xs0 : Vec F S1x1 .f32) (xs1 : Vec F S1x1 .f32) (xs2 : Vec F S1x1 .f32) (xs3 : Vec F S1x1 .f32) (xs4 : Vec F S1x256 .f32) (xs5 : Vec F S1x256 .f32)

theorem sout0_C_0_eq :
    sout0_C_0 c a hc0 hc1 x0 x1 xs0 xs1 xs2 xs3 xs4 xs5 = k0_pay17 x0 xs0 := by
  unfold sout0_C_0
  rw [View.read_writes_eq_canon _ _ _ (scover0_C_0 c a hc0 hc1 x0 x1 xs0 xs1 xs2 xs3 xs4 xs5)]
  unfold runC kernelRun0_C
  dsimp only
  sl_unfold_words
  rw [View.canon_unit_zero pieces_hz]
  simp only [View.readAt_eq_ld, a.harg1.read_unread, a.harg2.read_unread, a.harg3.read_unread, a.harg4.read_unread, a.harg5.read_unread, a.harg6.read_unread, a.harg7.read_unread, a.harg8.read_unread, a.harg9.read_unread, a.harg10.read_unread, a.harg11.read_unread,
    View.ld_unit_zero (S := S512x256) pieces_hz, View.ld_unit_zero (S := S1x1) pieces_hz, View.ld_unit_zero (S := S1x256) pieces_hz, View.ld_unit_zero (S := S1x4) pieces_hz]

theorem sout0_C_1_eq :
    sout0_C_1 c a hc0 hc1 x0 x1 xs0 xs1 xs2 xs3 xs4 xs5 = k0_pay1 (k0_pay18 x0 xs1) := by
  unfold sout0_C_1
  rw [View.read_writes_eq_canon _ _ _ (scover0_C_1 c a hc0 hc1 x0 x1 xs0 xs1 xs2 xs3 xs4 xs5)]
  unfold runC kernelRun0_C
  dsimp only
  sl_unfold_words
  rw [View.canon_unit_zero pieces_hz]
  simp only [View.readAt_eq_ld, a.harg1.read_unread, a.harg2.read_unread, a.harg3.read_unread, a.harg4.read_unread, a.harg5.read_unread, a.harg6.read_unread, a.harg7.read_unread, a.harg8.read_unread, a.harg9.read_unread, a.harg10.read_unread, a.harg11.read_unread,
    View.ld_unit_zero (S := S512x256) pieces_hz, View.ld_unit_zero (S := S1x1) pieces_hz, View.ld_unit_zero (S := S1x256) pieces_hz, View.ld_unit_zero (S := S1x4) pieces_hz]

theorem sout0_C_2_eq :
    sout0_C_2 c a hc0 hc1 x0 x1 xs0 xs1 xs2 xs3 xs4 xs5 = k0_pay2 (k0_pay13 x0) xs2 := by
  unfold sout0_C_2
  rw [View.read_writes_eq_canon _ _ _ (scover0_C_2 c a hc0 hc1 x0 x1 xs0 xs1 xs2 xs3 xs4 xs5)]
  unfold runC kernelRun0_C
  dsimp only
  sl_unfold_words
  rw [View.canon_unit_zero pieces_hz]
  simp only [View.readAt_eq_ld, a.harg1.read_unread, a.harg2.read_unread, a.harg3.read_unread, a.harg4.read_unread, a.harg5.read_unread, a.harg6.read_unread, a.harg7.read_unread, a.harg8.read_unread, a.harg9.read_unread, a.harg10.read_unread, a.harg11.read_unread,
    View.ld_unit_zero (S := S512x256) pieces_hz, View.ld_unit_zero (S := S1x1) pieces_hz, View.ld_unit_zero (S := S1x256) pieces_hz, View.ld_unit_zero (S := S1x4) pieces_hz]

theorem sout0_C_3_eq :
    sout0_C_3 c a hc0 hc1 x0 x1 xs0 xs1 xs2 xs3 xs4 xs5 = k0_pay3 (k0_pay14 x1) xs3 := by
  unfold sout0_C_3
  rw [View.read_writes_eq_canon _ _ _ (scover0_C_3 c a hc0 hc1 x0 x1 xs0 xs1 xs2 xs3 xs4 xs5)]
  unfold runC kernelRun0_C
  dsimp only
  sl_unfold_words
  rw [View.canon_unit_zero pieces_hz]
  simp only [View.readAt_eq_ld, a.harg1.read_unread, a.harg2.read_unread, a.harg3.read_unread, a.harg4.read_unread, a.harg5.read_unread, a.harg6.read_unread, a.harg7.read_unread, a.harg8.read_unread, a.harg9.read_unread, a.harg10.read_unread, a.harg11.read_unread,
    View.ld_unit_zero (S := S512x256) pieces_hz, View.ld_unit_zero (S := S1x1) pieces_hz, View.ld_unit_zero (S := S1x256) pieces_hz, View.ld_unit_zero (S := S1x4) pieces_hz]

theorem sout0_C_4_eq :
    sout0_C_4 c a hc0 hc1 x0 x1 xs0 xs1 xs2 xs3 xs4 xs5 = k0_pay4 (k0_pay15 x0) xs4 := by
  unfold sout0_C_4
  rw [View.read_writes_eq_canon _ _ _ (scover0_C_4 c a hc0 hc1 x0 x1 xs0 xs1 xs2 xs3 xs4 xs5)]
  unfold runC kernelRun0_C
  dsimp only
  sl_unfold_words
  rw [View.canon_unit_zero pieces_hz]
  simp only [View.readAt_eq_ld, a.harg1.read_unread, a.harg2.read_unread, a.harg3.read_unread, a.harg4.read_unread, a.harg5.read_unread, a.harg6.read_unread, a.harg7.read_unread, a.harg8.read_unread, a.harg9.read_unread, a.harg10.read_unread, a.harg11.read_unread,
    View.ld_unit_zero (S := S512x256) pieces_hz, View.ld_unit_zero (S := S1x1) pieces_hz, View.ld_unit_zero (S := S1x256) pieces_hz, View.ld_unit_zero (S := S1x4) pieces_hz]

theorem sout0_C_5_eq :
    sout0_C_5 c a hc0 hc1 x0 x1 xs0 xs1 xs2 xs3 xs4 xs5 = k0_pay5 (k0_pay16 x1) xs5 := by
  unfold sout0_C_5
  rw [View.read_writes_eq_canon _ _ _ (scover0_C_5 c a hc0 hc1 x0 x1 xs0 xs1 xs2 xs3 xs4 xs5)]
  unfold runC kernelRun0_C
  dsimp only
  sl_unfold_words
  rw [View.canon_unit_zero pieces_hz]
  simp only [View.readAt_eq_ld, a.harg1.read_unread, a.harg2.read_unread, a.harg3.read_unread, a.harg4.read_unread, a.harg5.read_unread, a.harg6.read_unread, a.harg7.read_unread, a.harg8.read_unread, a.harg9.read_unread, a.harg10.read_unread, a.harg11.read_unread,
    View.ld_unit_zero (S := S512x256) pieces_hz, View.ld_unit_zero (S := S1x1) pieces_hz, View.ld_unit_zero (S := S1x256) pieces_hz, View.ld_unit_zero (S := S1x4) pieces_hz]

theorem out0_C_2_eq :
    out0_C_2 c a hc0 hc1 x0 x1 xs0 xs1 xs2 xs3 xs4 xs5 = k0_pay6 (k0_pay17 x0 xs0) (k0_pay1 (k0_pay18 x0 xs1)) (k0_pay2 (k0_pay13 x0) xs2) (k0_pay3 (k0_pay14 x1) xs3) := by
  unfold out0_C_2
  rw [View.read_writes_eq_canon _ _ _ (cover0_C_2 c a hc0 hc1 x0 x1 xs0 xs1 xs2 xs3 xs4 xs5)]
  unfold runC kernelRun0_C
  dsimp only
  sl_unfold_words
  rw [View.canon_unit_zero pieces_hz]
  simp only [View.readAt_eq_ld, a.harg1.read_unread, a.harg2.read_unread, a.harg3.read_unread, a.harg4.read_unread, a.harg5.read_unread, a.harg6.read_unread, a.harg7.read_unread, a.harg8.read_unread, a.harg9.read_unread, a.harg10.read_unread, a.harg11.read_unread,
    View.ld_unit_zero (S := S512x256) pieces_hz, View.ld_unit_zero (S := S1x1) pieces_hz, View.ld_unit_zero (S := S1x256) pieces_hz, View.ld_unit_zero (S := S1x4) pieces_hz,
    View.readCov_unit_zero (S := S1x1) _ pieces_hz, View.readCov_unit_zero (S := S1x256) _ pieces_hz]

theorem out0_C_3_eq :
    out0_C_3 c a hc0 hc1 x0 x1 xs0 xs1 xs2 xs3 xs4 xs5 = k0_pay4 (k0_pay15 x0) xs4 := by
  unfold out0_C_3
  rw [View.read_writes_eq_canon _ _ _ (cover0_C_3 c a hc0 hc1 x0 x1 xs0 xs1 xs2 xs3 xs4 xs5)]
  unfold runC kernelRun0_C
  dsimp only
  sl_unfold_words
  rw [View.canon_unit_zero pieces_hz]
  simp only [View.readAt_eq_ld, a.harg1.read_unread, a.harg2.read_unread, a.harg3.read_unread, a.harg4.read_unread, a.harg5.read_unread, a.harg6.read_unread, a.harg7.read_unread, a.harg8.read_unread, a.harg9.read_unread, a.harg10.read_unread, a.harg11.read_unread,
    View.ld_unit_zero (S := S512x256) pieces_hz, View.ld_unit_zero (S := S1x1) pieces_hz, View.ld_unit_zero (S := S1x256) pieces_hz, View.ld_unit_zero (S := S1x4) pieces_hz,
    View.readCov_unit_zero (S := S1x1) _ pieces_hz, View.readCov_unit_zero (S := S1x256) _ pieces_hz]

theorem out0_C_4_eq :
    out0_C_4 c a hc0 hc1 x0 x1 xs0 xs1 xs2 xs3 xs4 xs5 = k0_pay5 (k0_pay16 x1) xs5 := by
  unfold out0_C_4
  rw [View.read_writes_eq_canon _ _ _ (cover0_C_4 c a hc0 hc1 x0 x1 xs0 xs1 xs2 xs3 xs4 xs5)]
  unfold runC kernelRun0_C
  dsimp only
  sl_unfold_words
  rw [View.canon_unit_zero pieces_hz]
  simp only [View.readAt_eq_ld, a.harg1.read_unread, a.harg2.read_unread, a.harg3.read_unread, a.harg4.read_unread, a.harg5.read_unread, a.harg6.read_unread, a.harg7.read_unread, a.harg8.read_unread, a.harg9.read_unread, a.harg10.read_unread, a.harg11.read_unread,
    View.ld_unit_zero (S := S512x256) pieces_hz, View.ld_unit_zero (S := S1x1) pieces_hz, View.ld_unit_zero (S := S1x256) pieces_hz, View.ld_unit_zero (S := S1x4) pieces_hz,
    View.readCov_unit_zero (S := S1x1) _ pieces_hz, View.readCov_unit_zero (S := S1x256) _ pieces_hz]

end CaseC

end Cert.KernelIdeal.HandValue

end
-- ==== Proof.Spec.lean ====
import Idealize.ShloMosaic.PureOps.Ideal

noncomputable section

namespace Cert.Mmd

open Idealize.ShloMosaic

/-- An input: 4096 rows of 256 entries, over the extended reals. -/
abbrev Mat := Fin 4096 → Fin 256 → EReal

/-- The six reductions the kernel carries from block to block: the source's largest and smallest entry, the two sums of squares, the two rows of column sums. -/
def mx (a : Mat) : EReal := Finset.univ.sup fun i => Finset.univ.sup fun d => a i d

def mn (a : Mat) : EReal := Finset.univ.inf fun i => Finset.univ.inf fun d => a i d

def sumsq (a : Mat) : EReal := ∑ i, ∑ d, a i d * a i d

def colsum (a : Mat) (d : Fin 256) : EReal := ∑ i, a i d

def invBw (bw : EReal) : EReal :=
  ((((0 + Ideal.div ((1 : ℝ) : EReal) (bw * ((1 : ℝ) : EReal)))
      + Ideal.div ((1 : ℝ) : EReal) (bw * ((2 : ℝ) : EReal)))
      + Ideal.div ((1 : ℝ) : EReal) (bw * ((4 : ℝ) : EReal)))
      + Ideal.div ((1 : ℝ) : EReal) (bw * ((8 : ℝ) : EReal)))
      + Ideal.div ((1 : ℝ) : EReal) (bw * ((16 : ℝ) : EReal))

def kS (σ : EReal) (c : Fin 256 → EReal) (d : Fin 256) : EReal := Ideal.div (c d) σ

def kQ (σ qs qt : EReal) : EReal := Ideal.div qs (σ * σ) + Ideal.div qt (σ * σ)

def kCdot (σ : EReal) (cs ct : Fin 256 → EReal) : EReal := 0 + ∑ d, (kS σ cs d + kS σ ct d) * (kS σ cs d + kS σ ct d)

def kBw (σ qs qt : EReal) (cs ct : Fin 256 → EReal) : EReal :=
  Ideal.div (Ideal.div (Ideal.div
    (((16384 : ℝ) : EReal) * kQ σ qs qt - ((2 : ℝ) : EReal) * kCdot σ cs ct) ((256 : ℝ) : EReal))
    ((67100672 : ℝ) : EReal)) ((4 : ℝ) : EReal)

def kDiff (σ : EReal) (cs ct : Fin 256 → EReal) : EReal := 0 + ∑ d, (kS σ cs d - kS σ ct d) * (kS σ cs d - kS σ ct d)

/-- The kernel's result, from the six reductions alone: with scale `σ = M − N` the bandwidth needs only `Σ‖x‖²` and `‖Σx‖²` of the stacked scaled rows, the statistic only `‖Σs − Σt‖²`. -/
def kernelTail (M N qs qt : EReal) (cs ct : Fin 256 → EReal) : EReal :=
  Ideal.div (invBw (kBw (M - N) qs qt cs ct) * ((2 : ℝ) : EReal)) ((4294967296 : ℝ) : EReal) * kDiff (M - N) cs ct

def kernelOut (a b : Mat) : EReal := kernelTail (mx a) (mn a) (sumsq a) (sumsq b) (colsum a) (colsum b)

def lo (i : Fin 4096) : Fin 8192 := ⟨i.val, by omega⟩
def hi (i : Fin 4096) : Fin 8192 := ⟨4096 + i.val, by omega⟩

/-- The reference stacks source over target (8192 rows), divides by the scale, -/
def tot (σ : EReal) (a b : Mat) (k : Fin 8192) (d : Fin 256) : EReal :=
  if h : k.val < 4096 then Ideal.div (a ⟨k.val, h⟩ d) σ else Ideal.div (b ⟨k.val - 4096, by omega⟩ d) σ

def rSq (σ : EReal) (a b : Mat) (k : Fin 8192) : EReal := 0 + ∑ d, tot σ a b k d * tot σ a b k d

def rGram (σ : EReal) (a b : Mat) (k l : Fin 8192) : EReal := 0 + ∑ d, tot σ a b k d * tot σ a b l d

/-- takes the squared distance of every two stacked rows (over 256), -/
def rL2 (σ : EReal) (a b : Mat) (k l : Fin 8192) : EReal :=
  Ideal.div ((rSq σ a b k + rSq σ a b l) - ((2 : ℝ) : EReal) * rGram σ a b k l) ((256 : ℝ) : EReal)

/-- the bandwidth from the sum over all 8192² pairs, -/
def rBw (σ : EReal) (a b : Mat) : EReal :=
  Ideal.div (Ideal.div (0 + ∑ k, ∑ l, rL2 σ a b k l) ((67100672 : ℝ) : EReal)) ((4 : ℝ) : EReal)

def rK (σ : EReal) (a b : Mat) (k l : Fin 8192) : EReal := (- rL2 σ a b k l) * invBw (rBw σ a b)

/-- the kernel values of a source index and a target index, with the statistic's signs, -/
def rE (σ : EReal) (a b : Mat) (i j : Fin 4096) : EReal :=
  ((rK σ a b (lo i) (lo j) + rK σ a b (hi i) (hi j)) - rK σ a b (lo i) (hi j)) - rK σ a b (hi i) (lo j)

/-- and their mean. -/
def refOut (a b : Mat) : EReal :=
  Ideal.div (0 + ∑ i, ∑ j, rE (mx a - mn a) a b i j) ((16777216 : ℝ) : EReal)

end Cert.Mmd

end
-- ==== Proof.MathBlocks.lean ====
import proofs.«167831_j66408784331046_1_alg».proof.Proof.Spec
import Mathlib.Logic.Equiv.Fin.Basic
import Mathlib.Data.Fintype.Prod
import Mathlib.Data.Fintype.BigOperators
import Mathlib.Data.Finset.Lattice.Prod
import Mathlib.Data.Finset.Lattice.Fold
import Mathlib.Data.Finset.BooleanAlgebra
import Mathlib.Data.EReal.Basic

noncomputable section

namespace Cert.Mmd

def blkRow (t : Fin 8) (r : Fin 512) : Fin 4096 := ⟨512 * t.val + r.val, by omega⟩

def blkEquiv : Fin 8 × Fin 512 ≃ Fin 4096 := (finProdFinEquiv : Fin 8 × Fin 512 ≃ Fin (8 * 512))

theorem blkEquiv_apply (t : Fin 8) (r : Fin 512) : blkEquiv (t, r) = blkRow t r := by
  apply Fin.ext
  show r.val + 512 * t.val = 512 * t.val + r.val
  omega

theorem sum_blocks (f : Fin 4096 → EReal) : ∑ i, f i = ∑ t : Fin 8, ∑ r : Fin 512, f (blkRow t r) := by
  rw [← Fintype.sum_prod_type' (fun t r => f (blkRow t r))]
  exact (Fintype.sum_equiv blkEquiv (fun x => f (blkRow x.1 x.2)) f
    (fun x => by rw [← blkEquiv_apply])).symm

theorem sup_blocks (f : Fin 4096 → EReal) :
    Finset.univ.sup f = Finset.univ.sup fun t : Fin 8 => Finset.univ.sup fun r : Fin 512 => f (blkRow t r) := by
  rw [← Finset.map_univ_equiv blkEquiv, Finset.sup_map, ← Finset.univ_product_univ,
    Finset.sup_product_left]
  simp only [Function.comp, Equiv.coe_toEmbedding, blkEquiv_apply]

theorem inf_blocks (f : Fin 4096 → EReal) :
    Finset.univ.inf f = Finset.univ.inf fun t : Fin 8 => Finset.univ.inf fun r : Fin 512 => f (blkRow t r) := by
  rw [← Finset.map_univ_equiv blkEquiv, Finset.inf_map, ← Finset.univ_product_univ,
    Finset.inf_product_left]
  simp only [Function.comp, Equiv.coe_toEmbedding, blkEquiv_apply]

theorem blocks_le_zero : Finset.univ.filter (fun t : Fin 8 => t.val ≤ 0) = {0} := by
  ext t
  simp only [Finset.mem_filter, Finset.mem_univ, true_and, Finset.mem_singleton, Fin.ext_iff, Fin.val_zero]
  omega

theorem blocks_le_succ (n : ℕ) (h : n + 1 < 8) :
    Finset.univ.filter (fun t : Fin 8 => t.val ≤ n + 1)
      = insert (⟨n + 1, h⟩ : Fin 8) (Finset.univ.filter (fun t : Fin 8 => t.val ≤ n)) := by
  ext t
  simp only [Finset.mem_filter, Finset.mem_univ, true_and, Finset.mem_insert, Fin.ext_iff]
  omega

theorem blocks_succ_notMem (n : ℕ) (h : n + 1 < 8) :
    (⟨n + 1, h⟩ : Fin 8) ∉ Finset.univ.filter (fun t : Fin 8 => t.val ≤ n) := by
  simp only [Finset.mem_filter, Finset.mem_univ, true_and]
  omega

theorem blocks_le_last : Finset.univ.filter (fun t : Fin 8 => t.val ≤ 7) = Finset.univ := by
  apply Finset.filter_true_of_mem
  intro t _
  have := t.isLt
  omega

def partSum (g : Fin 8 → EReal) (n : ℕ) : EReal := ∑ t ∈ Finset.univ.filter (fun t : Fin 8 => t.val ≤ n), g t

theorem partSum_zero (g : Fin 8 → EReal) : partSum g 0 = 0 + g 0 := by
  unfold partSum
  rw [blocks_le_zero, Finset.sum_singleton, zero_add]

theorem partSum_succ (g : Fin 8 → EReal) (n : ℕ) (h : n + 1 < 8) :
    partSum g (n + 1) = partSum g n + g ⟨n + 1, h⟩ := by
  unfold partSum
  rw [blocks_le_succ n h, Finset.sum_insert (blocks_succ_notMem n h), add_comm]

theorem partSum_last (g : Fin 8 → EReal) : partSum g 7 = ∑ t, g t := by
  unfold partSum
  rw [blocks_le_last]

def partSup (g : Fin 8 → EReal) (n : ℕ) : EReal := (Finset.univ.filter (fun t : Fin 8 => t.val ≤ n)).sup g

theorem partSup_zero (g : Fin 8 → EReal) : partSup g 0 = max ⊥ (g 0) := by
  unfold partSup
  rw [blocks_le_zero, Finset.sup_singleton, max_eq_right bot_le]

theorem partSup_succ (g : Fin 8 → EReal) (n : ℕ) (h : n + 1 < 8) :
    partSup g (n + 1) = max (partSup g n) (g ⟨n + 1, h⟩) := by
  unfold partSup
  rw [blocks_le_succ n h, Finset.sup_insert, max_comm]

theorem partSup_last (g : Fin 8 → EReal) : partSup g 7 = Finset.univ.sup g := by
  unfold partSup
  rw [blocks_le_last]

def partInf (g : Fin 8 → EReal) (n : ℕ) : EReal := (Finset.univ.filter (fun t : Fin 8 => t.val ≤ n)).inf g

theorem partInf_zero (g : Fin 8 → EReal) : partInf g 0 = min ⊤ (g 0) := by
  unfold partInf
  rw [blocks_le_zero, Finset.inf_singleton, min_eq_right le_top]

theorem partInf_succ (g : Fin 8 → EReal) (n : ℕ) (h : n + 1 < 8) :
    partInf g (n + 1) = min (partInf g n) (g ⟨n + 1, h⟩) := by
  unfold partInf
  rw [blocks_le_succ n h, Finset.inf_insert, min_comm]

theorem partInf_last (g : Fin 8 → EReal) : partInf g 7 = Finset.univ.inf g := by
  unfold partInf
  rw [blocks_le_last]

end Cert.Mmd

end
-- ==== Proof.AsMat.lean ====
import proofs.«167831_j66408784331046_1_alg».proof.Proof.Spec
import Idealize.ShloMosaic.Lib.ValueIdx

noncomputable section

namespace Cert.Mmd

open Idealize.ShloMosaic Idealize.ShloMosaic.ValueIdx

def asMat (x : (⟨2, ![4096, 256]⟩ : Shape).Idx → EReal) : Mat := fun i d => x (ix2 i d)

theorem asMat_apply (x : (⟨2, ![4096, 256]⟩ : Shape).Idx → EReal) (i : Fin 4096) (d : Fin 256) : asMat x i d = x (ix2 i d) := rfl

end Cert.Mmd

end
-- ==== Proof.KBlock.lean ====
import proofs.«167831_j66408784331046_1_alg».proof.Proof.KRuns
import proofs.«167831_j66408784331046_1_alg».proof.Proof.MathBlocks
import proofs.«167831_j66408784331046_1_alg».proof.Proof.AsMat
import Idealize.ShloMosaic.Lib.Pipeline.Value
import Idealize.ShloMosaic.Lib.ValueIdx

noncomputable section

namespace Cert.KernelIdeal.HandValue

open Cert.KernelIdeal Cert.KernelIdeal.Gen Cert.KernelIdeal.Hand Idealize.ShloMosaic Idealize.ShloMosaic.ValueIdx
open Idealize.ShloMosaic.TcCoe Idealize.SL.Sem

section AnyValues
variable {F : FTy → Type} [FloatOps F]
variable (m : (ℓ : Loc nD τ sig) → Buf (Elt F) ℓ)

theorem win0_0_index (t : Fin cfg0.N) : win0_0.index t (0 : Fin 2) = t.val ∧ win0_0.index t (1 : Fin 2) = 0 :=
  (by decide +kernel : ∀ t : Fin grid0.N, win0_0.index t (0 : Fin 2) = t.val ∧ win0_0.index t (1 : Fin 2) = 0) t

theorem win0_1_index (t : Fin cfg0.N) : win0_1.index t (0 : Fin 2) = t.val ∧ win0_1.index t (1 : Fin 2) = 0 :=
  (by decide +kernel : ∀ t : Fin grid0.N, win0_1.index t (0 : Fin 2) = t.val ∧ win0_1.index t (1 : Fin 2) = 0) t

theorem iblk0_apply (c : Dev nD) (t : Fin cfg0.N) (r : Fin 512) (d : Fin 256) (k : Fin 4096)
    (hk : k.val = 512 * t.val + r.val) :
    (iblk m c 0 t : Vec F S512x256 .f32) (ix2 r d)
      = (m ((c.tc : Thread nD τ).loc main_arg0) : S4096x256.Idx → Elt F .f32) (ix2 k d) := by
  unfold iblk
  rw [View.read_apply]
  show V m c main_arg0 _ = m ((c.tc : Thread nD τ).loc main_arg0) _
  refine congrArg (m ((c.tc : Thread nD τ).loc main_arg0)) (funext fun a => Fin.ext ?_)
  match a with
  | ⟨0, _⟩ =>
    show win0_0.index t (0 : Fin 2) * 512 + 1 * r.val = k.val
    rw [(win0_0_index t).1, hk]; omega
  | ⟨1, _⟩ =>
    show win0_0.index t (1 : Fin 2) * 256 + 1 * d.val = d.val
    rw [(win0_0_index t).2]; omega

theorem iblk1_apply (c : Dev nD) (t : Fin cfg0.N) (r : Fin 512) (d : Fin 256) (k : Fin 4096)
    (hk : k.val = 512 * t.val + r.val) :
    (iblk m c 1 t : Vec F S512x256 .f32) (ix2 r d)
      = (m ((c.tc : Thread nD τ).loc main_arg1) : S4096x256.Idx → Elt F .f32) (ix2 k d) := by
  unfold iblk
  rw [View.read_apply]
  show V m c main_arg1 _ = m ((c.tc : Thread nD τ).loc main_arg1) _
  refine congrArg (m ((c.tc : Thread nD τ).loc main_arg1)) (funext fun a => Fin.ext ?_)
  match a with
  | ⟨0, _⟩ =>
    show win0_1.index t (0 : Fin 2) * 512 + 1 * r.val = k.val
    rw [(win0_1_index t).1, hk]; omega
  | ⟨1, _⟩ =>
    show win0_1.index t (1 : Fin 2) * 256 + 1 * d.val = d.val
    rw [(win0_1_index t).2]; omega

end AnyValues

variable (m : (ℓ : Loc nD τ sig) → Buf (Elt Ideal) ℓ)

abbrev sblk (c : Dev nD) (t : Fin cfg0.N) : Vec Ideal S512x256 .f32 := iblk m c 0 t

abbrev tblk (c : Dev nD) (t : Fin cfg0.N) : Vec Ideal S512x256 .f32 := iblk m c 1 t

theorem sblk_apply (c : Dev nD) (t : Fin cfg0.N) (r : Fin 512) (d : Fin 256) :
    sblk m c t (ix2 r d)
      = Cert.Mmd.asMat (m ((c.tc : Thread nD τ).loc main_arg0)) (Cert.Mmd.blkRow ⟨t.val, lt_of_lt_of_eq t.isLt N_0⟩ r) d :=
  iblk0_apply m c t r d _ rfl

theorem tblk_apply (c : Dev nD) (t : Fin cfg0.N) (r : Fin 512) (d : Fin 256) :
    tblk m c t (ix2 r d)
      = Cert.Mmd.asMat (m ((c.tc : Thread nD τ).loc main_arg1)) (Cert.Mmd.blkRow ⟨t.val, lt_of_lt_of_eq t.isLt N_0⟩ r) d :=
  iblk1_apply m c t r d _ rfl

end Cert.KernelIdeal.HandValue

end
-- ==== Proof.KFinal.lean ====
import proofs.«167831_j66408784331046_1_alg».proof.Proof.KFrame
import Idealize.ShloMosaic.Lib.Pipeline.Value
import Idealize.ShloMosaic.Lib.ValueIdx

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable {F : FTy → Type} [FloatOps F]

theorem origin2 : (fun a => win0_2.index t0_7 a * main_v0_0.ty.shape.size a) = fun _ => 0 :=
  funext fun a => by fin_cases a <;> decide

theorem origin3 : (fun a => win0_3.index t0_7 a * main_v0_1.ty.shape.size a) = fun _ => 0 :=
  funext fun a => by fin_cases a <;> decide

theorem origin4 : (fun a => win0_4.index t0_7 a * main_v0_2.ty.shape.size a) = fun _ => 0 :=
  funext fun a => by fin_cases a <;> decide

theorem moved2 (X : Vec F S1x4 .f32) :
    (cfg0.win 2).cut (grid0.coords t0_7) X = ((cfg0.win 2).blk t0_7).view.read (Elt F) X :=
  (Memref.read_access_unit_zero (Elt F) main_v0_0 origin2
    (fun a => by rw [congrFun origin2 a, Nat.zero_add]) X).symm
theorem moved3 (X : Vec F S1x256 .f32) :
    (cfg0.win 3).cut (grid0.coords t0_7) X = ((cfg0.win 3).blk t0_7).view.read (Elt F) X :=
  (Memref.read_access_unit_zero (Elt F) main_v0_1 origin3
    (fun a => by rw [congrFun origin3 a, Nat.zero_add]) X).symm
theorem moved4 (X : Vec F S1x256 .f32) :
    (cfg0.win 4).cut (grid0.coords t0_7) X = ((cfg0.win 4).blk t0_7).view.read (Elt F) X :=
  (Memref.read_access_unit_zero (Elt F) main_v0_2 origin4
    (fun a => by rw [congrFun origin4 a, Nat.zero_add]) X).symm

theorem inside2 (i : S1x4.Idx) : i ∈ (win0_2.rect t0_7).set := by
  refine Rect.mem_set_unit.2 fun a => ?_
  have hi : (i a : Nat) < S1x4.size a := (i a).isLt
  have ho : win0_2.index t0_7 a * win0_2.size a = 0 := by fin_cases a <;> decide +kernel
  have hx : win0_2.xsize (grid0.coords t0_7) a = S1x4.size a := by fin_cases a <;> decide +kernel
  rw [ho, hx, Nat.zero_add]
  exact ⟨Nat.zero_le _, hi⟩
theorem inside3 (i : S1x256.Idx) : i ∈ (win0_3.rect t0_7).set := by
  refine Rect.mem_set_unit.2 fun a => ?_
  have hi : (i a : Nat) < S1x256.size a := (i a).isLt
  have ho : win0_3.index t0_7 a * win0_3.size a = 0 := by fin_cases a <;> decide +kernel
  have hx : win0_3.xsize (grid0.coords t0_7) a = S1x256.size a := by fin_cases a <;> decide +kernel
  rw [ho, hx, Nat.zero_add]
  exact ⟨Nat.zero_le _, hi⟩
theorem inside4 (i : S1x256.Idx) : i ∈ (win0_4.rect t0_7).set := by
  refine Rect.mem_set_unit.2 fun a => ?_
  have hi : (i a : Nat) < S1x256.size a := (i a).isLt
  have ho : win0_4.index t0_7 a * win0_4.size a = 0 := by fin_cases a <;> decide +kernel
  have hx : win0_4.xsize (grid0.coords t0_7) a = S1x256.size a := by fin_cases a <;> decide +kernel
  rw [ho, hx, Nat.zero_add]
  exact ⟨Nat.zero_le _, hi⟩

theorem eq_last (t : Fin cfg0.N) (h : t.val % 8 = 7) : t = t0_7 := by
  have hN : cfg0.N = 8 := N_0
  have ht := t.isLt
  exact Fin.ext (show t.val = 7 by omega)

theorem h7 : 7 < cfg0.N := by rw [show cfg0.N = 8 from N_0]; decide

variable (m : (ℓ : Loc nD τ sig) → Buf (Elt F) ℓ)

abbrev last2 (c : Dev nD) : Buf (Elt F) ((c : Thread nD τ).loc main_v0_0) := (outsAt0 m c 7 h7).1

abbrev last3 (c : Dev nD) : Buf (Elt F) ((c : Thread nD τ).loc main_v0_1) := (outsAt0 m c 7 h7).2.1

abbrev last4 (c : Dev nD) : Buf (Elt F) ((c : Thread nD τ).loc main_v0_2) := (outsAt0 m c 7 h7).2.2.1

theorem flushed2_eq (c : Dev nD) (t : Fin cfg0.N) (hf : (cfg0.win 2).flush t = true) :
    (dats m 0 c).flushed 2 t = ((cfg0.win 2).blk t).view.read (Elt F) (last2 m c) := by
  obtain rfl := eq_last t ((flush0_2 t).mp hf)
  show (cfg0.win 2).cut (grid0.coords t0_7) ((dats m 0 c).after 2 t0_7) = _
  rw [after0_2]
  exact moved2 (last2 m c)
theorem flushed3_eq (c : Dev nD) (t : Fin cfg0.N) (hf : (cfg0.win 3).flush t = true) :
    (dats m 0 c).flushed 3 t = ((cfg0.win 3).blk t).view.read (Elt F) (last3 m c) := by
  obtain rfl := eq_last t ((flush0_3 t).mp hf)
  show (cfg0.win 3).cut (grid0.coords t0_7) ((dats m 0 c).after 3 t0_7) = _
  rw [after0_3]
  exact moved3 (last3 m c)
theorem flushed4_eq (c : Dev nD) (t : Fin cfg0.N) (hf : (cfg0.win 4).flush t = true) :
    (dats m 0 c).flushed 4 t = ((cfg0.win 4).blk t).view.read (Elt F) (last4 m c) := by
  obtain rfl := eq_last t ((flush0_4 t).mp hf)
  show (cfg0.win 4).cut (grid0.coords t0_7) ((dats m 0 c).after 4 t0_7) = _
  rw [after0_4]
  exact moved4 (last4 m c)

/-- The three result arrays end at the last point's three outputs. -/
theorem arrAt2_final (c : Dev nD) : (dats m 0 c).arrAt 2 cfg0.N = last2 m c :=
  (dats m 0 c).arrAt_eq_of_cover 2 (last2 m c) (flushed2_eq m c) fun i =>
    ⟨t0_7, (flush0_2 t0_7).mpr rfl, by
      show i ∈ ((View.whole main_v0_0).slice (win0_2.rect t0_7)).set
      rw [View.set_slice_whole]
      exact inside2 i⟩

theorem arrAt3_final (c : Dev nD) : (dats m 0 c).arrAt 3 cfg0.N = last3 m c :=
  (dats m 0 c).arrAt_eq_of_cover 3 (last3 m c) (flushed3_eq m c) fun i =>
    ⟨t0_7, (flush0_3 t0_7).mpr rfl, by
      show i ∈ ((View.whole main_v0_1).slice (win0_3.rect t0_7)).set
      rw [View.set_slice_whole]
      exact inside3 i⟩

theorem arrAt4_final (c : Dev nD) : (dats m 0 c).arrAt 4 cfg0.N = last4 m c :=
  (dats m 0 c).arrAt_eq_of_cover 4 (last4 m c) (flushed4_eq m c) fun i =>
    ⟨t0_7, (flush0_4 t0_7).mpr rfl, by
      show i ∈ ((View.whole main_v0_2).slice (win0_4.rect t0_7)).set
      rw [View.set_slice_whole]
      exact inside4 i⟩

end Cert.KernelIdeal.HandValue

end
-- ==== Proof.Consts.lean ====
import Idealize.ShloMosaic.PureOps.Ideal

noncomputable section

namespace Cert.Mmd.Consts

open Idealize.ShloMosaic

theorem ofBits_ninf : Ideal.ofBits .f32 0xFF800000#32 = ⊥ := by
  simp [Ideal.ofBits, Ideal.ieee]

theorem ofBits_pinf : Ideal.ofBits .f32 0x7F800000#32 = ⊤ := by
  simp [Ideal.ofBits, Ideal.ieee]

theorem ofBits_zero : Ideal.ofBits .f32 0x00000000#32 = 0 := by
  simp [Ideal.ofBits, Ideal.ieee]

theorem ofBits_one : Ideal.ofBits .f32 0x3F800000#32 = ((1 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_four : Ideal.ofBits .f32 0x40800000#32 = ((4 : ℝ) : EReal) := by
  simp [Ideal.ofBits, Ideal.ieee, -EReal.coe_mul]; norm_num

theorem ofBits_eight : Ideal.ofBits .f32 0x41000000#32 = ((8 : ℝ) : EReal) := by
  simp [Ideal.ofBits, Ideal.ieee, -EReal.coe_mul]; norm_num

theorem ofBits_sixteen : Ideal.ofBits .f32 0x41800000#32 = ((16 : ℝ) : EReal) := by
  simp [Ideal.ofBits, Ideal.ieee, -EReal.coe_mul]; norm_num

theorem ofBits_256 : Ideal.ofBits .f32 0x43800000#32 = ((256 : ℝ) : EReal) := by
  simp [Ideal.ofBits, Ideal.ieee, -EReal.coe_mul]; norm_num

theorem ofBits_16384 : Ideal.ofBits .f32 0x46800000#32 = ((16384 : ℝ) : EReal) := by
  simp [Ideal.ofBits, Ideal.ieee, -EReal.coe_mul]; norm_num

theorem ofBits_67100672 : Ideal.ofBits .f32 0x4C7FF800#32 = ((67100672 : ℝ) : EReal) := by
  simp [Ideal.ofBits, Ideal.ieee, -EReal.coe_mul]; norm_num

theorem ofBits_16777216 : Ideal.ofBits .f32 0x4B800000#32 = ((16777216 : ℝ) : EReal) := by
  simp [Ideal.ofBits, Ideal.ieee, -EReal.coe_mul]; norm_num

theorem ofBits_4294967296 : Ideal.ofBits .f32 0x4F800000#32 = ((4294967296 : ℝ) : EReal) := by
  simp [Ideal.ofBits, Ideal.ieee, -EReal.coe_mul]; norm_num

end Cert.Mmd.Consts

end
-- ==== Proof.KPay.lean ====
import proofs.«167831_j66408784331046_1_alg».proof.Proof.Gen.KernelIdeal.Skeleton
import proofs.«167831_j66408784331046_1_alg».proof.Proof.Consts
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Idealize.ShloMosaic Idealize.ShloMosaic.ValueIdx Cert.KernelIdeal Cert.KernelIdeal.Gen

theorem laneSum_apply (y : FVec Ideal S512x256 .f32) (h : S512x256.Reduces [1] S512) (hφ : FKind.Formats .f32)
    (hacc : (0x00000000#32 : BitVec 32) = FKind.add.neutral .f32 hφ) (r : Fin 512) :
    multiReduction .add [1] S512 y 0x00000000#32 h hφ hacc (ix1 r) = ∑ d : Fin 256, y (ix2 r d) := by
  refine (Ideal.multiReduction_add_single y _ h hφ hacc (ix1 r)).trans ?_
  exact Finset.sum_congr rfl fun d _ => congrArg y (funext fun c => Fin.ext (by
    match c with | ⟨0, _⟩ => rfl | ⟨1, _⟩ => rfl))

theorem sublaneSum_apply (y : FVec Ideal S512x256 .f32) (h : S512x256.Reduces [0] S256) (hφ : FKind.Formats .f32)
    (hacc : (0x00000000#32 : BitVec 32) = FKind.add.neutral .f32 hφ) (d : Fin 256) :
    multiReduction .add [0] S256 y 0x00000000#32 h hφ hacc (ix1 d) = ∑ r : Fin 512, y (ix2 r d) := by
  refine (Ideal.multiReduction_add_single y _ h hφ hacc (ix1 d)).trans ?_
  exact Finset.sum_congr rfl fun r _ => congrArg y (funext fun c => Fin.ext (by
    match c with | ⟨0, _⟩ => rfl | ⟨1, _⟩ => rfl))

theorem columnSum_apply (w : FVec Ideal S512x1 .f32) (h : S512x1.Reduces [0] S1) (hφ : FKind.Formats .f32)
    (hacc : (0x00000000#32 : BitVec 32) = FKind.add.neutral .f32 hφ) (u : Fin 1) :
    multiReduction .add [0] S1 w 0x00000000#32 h hφ hacc (ix1 u) = ∑ r : Fin 512, w (ix2 r u) := by
  refine (Ideal.multiReduction_add_single w _ h hφ hacc (ix1 u)).trans ?_
  exact Finset.sum_congr rfl fun r _ => congrArg w (funext fun c => Fin.ext (by
    match c with | ⟨0, _⟩ => rfl | ⟨1, _⟩ => rfl))

theorem cast_column_apply {α : Type} (v : S512.Idx → α) (h : S512.ShapeCasts S512x1) (r : Fin 512) (u : Fin 1) :
    shapeCast S512x1 v h (ix2 r u) = v (ix1 r) :=
  shapeCast_apply v h _ _ (by
    have hu : u.val = 0 := by omega
    rw [Shape.rowMajor_val_two, Shape.rowMajor_val_one]
    show r.val = r.val * 1 + u.val
    rw [hu, Nat.mul_one, Nat.add_zero])

theorem pay13_apply (x : Vec Ideal S512x256 .f32) (j : S1x1.Idx) :
    k0_pay13 (F := Ideal) x j = ∑ r : Fin 512, ∑ d : Fin 256, x (ix2 r d) * x (ix2 r d) := by
  obtain ⟨p, q, rfl⟩ : ∃ (p : Fin 1) (q : Fin 1), j = ix2 p q := ⟨j 0, j 1, eq_ix2 j⟩
  unfold k0_pay13
  refine (shapeCast_a_1a_apply _ _ p q).trans ?_
  refine (columnSum_apply _ _ _ _ q).trans ?_
  refine Finset.sum_congr rfl fun r _ => ?_
  refine (cast_column_apply _ _ r q).trans ?_
  exact laneSum_apply _ _ _ _ r

theorem pay14_apply (x : Vec Ideal S512x256 .f32) (j : S1x1.Idx) :
    k0_pay14 (F := Ideal) x j = ∑ r : Fin 512, ∑ d : Fin 256, x (ix2 r d) * x (ix2 r d) := by
  obtain ⟨p, q, rfl⟩ : ∃ (p : Fin 1) (q : Fin 1), j = ix2 p q := ⟨j 0, j 1, eq_ix2 j⟩
  unfold k0_pay14
  refine (shapeCast_a_1a_apply _ _ p q).trans ?_
  refine (columnSum_apply _ _ _ _ q).trans ?_
  refine Finset.sum_congr rfl fun r _ => ?_
  refine (cast_column_apply _ _ r q).trans ?_
  exact laneSum_apply _ _ _ _ r

theorem pay15_apply (x : Vec Ideal S512x256 .f32) (u : Fin 1) (d : Fin 256) :
    k0_pay15 (F := Ideal) x (ix2 u d) = ∑ r : Fin 512, x (ix2 r d) := by
  unfold k0_pay15
  refine (shapeCast_a_1a_apply _ _ u d).trans ?_
  exact sublaneSum_apply _ _ _ _ d

theorem pay16_apply (x : Vec Ideal S512x256 .f32) (u : Fin 1) (d : Fin 256) :
    k0_pay16 (F := Ideal) x (ix2 u d) = ∑ r : Fin 512, x (ix2 r d) := by
  unfold k0_pay16
  refine (shapeCast_a_1a_apply _ _ u d).trans ?_
  exact sublaneSum_apply _ _ _ _ d

theorem pay1_eq (v : FVec Ideal S1x1 .f32) : k0_pay1 (F := Ideal) v = v := by
  unfold k0_pay1; exact shapeCast_self _ _

theorem pay2_apply (v17 : FVec Ideal S1x1 .f32) (v37 : Vec Ideal S1x1 .f32) (j : S1x1.Idx) :
    k0_pay2 (F := Ideal) v17 v37 j = v37 j + v17 j := by
  unfold k0_pay2; exact congrFun (shapeCast_self _ _) j

theorem pay3_apply (v22 : FVec Ideal S1x1 .f32) (v42 : Vec Ideal S1x1 .f32) (j : S1x1.Idx) :
    k0_pay3 (F := Ideal) v22 v42 j = v42 j + v22 j := by
  unfold k0_pay3; exact congrFun (shapeCast_self _ _) j

theorem pay4_apply (v24 : FVec Ideal S1x256 .f32) (v47 : Vec Ideal S1x256 .f32) (j : S1x256.Idx) :
    k0_pay4 (F := Ideal) v24 v47 j = v47 j + v24 j := by
  unfold k0_pay4; exact congrFun (shapeCast_self _ _) j

theorem pay5_apply (v26 : FVec Ideal S1x256 .f32) (v52 : Vec Ideal S1x256 .f32) (j : S1x256.Idx) :
    k0_pay5 (F := Ideal) v26 v52 j = v52 j + v26 j := by
  unfold k0_pay5; exact congrFun (shapeCast_self _ _) j

theorem pay7_apply (j : S1x1.Idx) : k0_pay7 (F := Ideal) j = ⊥ := by
  unfold k0_pay7; exact (congrFun (shapeCast_self _ _) j).trans Cert.Mmd.Consts.ofBits_ninf

theorem pay8_apply (j : S1x1.Idx) : k0_pay8 (F := Ideal) j = ⊤ := by
  unfold k0_pay8; exact (congrFun (shapeCast_self _ _) j).trans Cert.Mmd.Consts.ofBits_pinf

theorem pay9_apply (j : S1x1.Idx) : k0_pay9 (F := Ideal) j = 0 := by
  unfold k0_pay9; exact (congrFun (shapeCast_self _ _) j).trans Cert.Mmd.Consts.ofBits_zero

theorem pay10_apply (j : S1x1.Idx) : k0_pay10 (F := Ideal) j = 0 := by
  unfold k0_pay10; exact (congrFun (shapeCast_self _ _) j).trans Cert.Mmd.Consts.ofBits_zero

theorem pay11_apply (j : S1x256.Idx) : k0_pay11 (F := Ideal) j = 0 := by
  unfold k0_pay11; exact (congrFun (shapeCast_self _ _) j).trans Cert.Mmd.Consts.ofBits_zero

theorem pay12_apply (j : S1x256.Idx) : k0_pay12 (F := Ideal) j = 0 := by
  unfold k0_pay12; exact (congrFun (shapeCast_self _ _) j).trans Cert.Mmd.Consts.ofBits_zero

theorem pay6_apply_0 (v60 v61 v62 v63 : Vec Ideal S1x1 .f32) (u : Fin 1) :
    k0_pay6 (F := Ideal) v60 v61 v62 v63 (ix2 u (0 : Fin 4)) = v60 (ix2 (0 : Fin 1) (0 : Fin 1)) := by
  unfold k0_pay6
  refine concatenate_apply_piece (1 : Fin 2) _ _ (ix2 u (0 : Fin 4)) 0 ?_ S1x1 v60 ?_ rfl 0 ?_
    (ix2 (0 : Fin 1) (0 : Fin 1)) (fun b hb => ?_) ?_
  · show _ < 4; omega
  · rfl
  · rfl
  · match b with
    | ⟨0, _⟩ => show (0 : Nat) = u.val; omega
    | ⟨1, _⟩ => exact absurd rfl hb
  · rfl

theorem pay6_apply_1 (v60 v61 v62 v63 : Vec Ideal S1x1 .f32) (u : Fin 1) :
    k0_pay6 (F := Ideal) v60 v61 v62 v63 (ix2 u (1 : Fin 4)) = v61 (ix2 (0 : Fin 1) (0 : Fin 1)) := by
  unfold k0_pay6
  refine concatenate_apply_piece (1 : Fin 2) _ _ (ix2 u (1 : Fin 4)) 1 ?_ S1x1 v61 ?_ rfl 1 ?_
    (ix2 (0 : Fin 1) (0 : Fin 1)) (fun b hb => ?_) ?_
  · show _ < 4; omega
  · rfl
  · rfl
  · match b with
    | ⟨0, _⟩ => show (0 : Nat) = u.val; omega
    | ⟨1, _⟩ => exact absurd rfl hb
  · rfl

theorem pay6_apply_2 (v60 v61 v62 v63 : Vec Ideal S1x1 .f32) (u : Fin 1) :
    k0_pay6 (F := Ideal) v60 v61 v62 v63 (ix2 u (2 : Fin 4)) = v62 (ix2 (0 : Fin 1) (0 : Fin 1)) := by
  unfold k0_pay6
  refine concatenate_apply_piece (1 : Fin 2) _ _ (ix2 u (2 : Fin 4)) 2 ?_ S1x1 v62 ?_ rfl 2 ?_
    (ix2 (0 : Fin 1) (0 : Fin 1)) (fun b hb => ?_) ?_
  · show _ < 4; omega
  · rfl
  · rfl
  · match b with
    | ⟨0, _⟩ => show (0 : Nat) = u.val; omega
    | ⟨1, _⟩ => exact absurd rfl hb
  · rfl

theorem pay6_apply_3 (v60 v61 v62 v63 : Vec Ideal S1x1 .f32) (u : Fin 1) :
    k0_pay6 (F := Ideal) v60 v61 v62 v63 (ix2 u (3 : Fin 4)) = v63 (ix2 (0 : Fin 1) (0 : Fin 1)) := by
  unfold k0_pay6
  refine concatenate_apply_piece (1 : Fin 2) _ _ (ix2 u (3 : Fin 4)) 3 ?_ S1x1 v63 ?_ rfl 3 ?_
    (ix2 (0 : Fin 1) (0 : Fin 1)) (fun b hb => ?_) ?_
  · show _ < 4; omega
  · rfl
  · rfl
  · match b with
    | ⟨0, _⟩ => show (0 : Nat) = u.val; omega
    | ⟨1, _⟩ => exact absurd rfl hb
  · rfl

end Cert.KernelIdeal.Pay

end
-- ==== Proof.KPayExt.lean ====
import proofs.«167831_j66408784331046_1_alg».proof.Proof.Gen.KernelIdeal.Skeleton
import proofs.«167831_j66408784331046_1_alg».proof.Proof.Spec
import proofs.«167831_j66408784331046_1_alg».proof.Proof.Consts
import Idealize.ShloMosaic.PureOps.Ideal.Laws
import Idealize.ShloMosaic.Lib.ValueIdx
import Idealize.ShloMosaic.Lib.Pipeline.Value

noncomputable section

namespace Cert.KernelIdeal.Pay

open Cert.KernelIdeal Cert.KernelIdeal.Gen Idealize.ShloMosaic Idealize.ShloMosaic.ValueIdx

theorem fold_max_bot {ι : Type} (s : Finset ι) (f : ι → EReal) : s.fold max ⊥ f = s.sup f := rfl

theorem fold_min_top {ι : Type} (s : Finset ι) (f : ι → EReal) : s.fold min ⊤ f = s.inf f := rfl

theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

theorem rowMax_apply (x : Vec Ideal S512x256 .f32) (hφ : FKind.Formats .f32)
    (hacc : (0xFF800000#32 : BitVec 32) = FKind.maximumf.neutral .f32 hφ) (r : Fin 512) :
    multiReduction (F := Ideal) .maximumf [1] S512 x 0xFF800000#32 reduces_S512x256_S512 hφ hacc (ix1 r)
      = Finset.univ.sup fun d : Fin 256 => x (ix2 r d) := by
  rw [Ideal.multiReduction_maximumf_single, Ideal.ofBits_def, Cert.Mmd.Consts.ofBits_ninf]
  have e : (x ∘ reduces_S512x256_S512.lift (ix1 r)) = fun d : Fin 256 => x (ix2 r d) :=
    funext fun d => congrArg x (funext fun c => match c with | ⟨0, _⟩ => rfl | ⟨1, _⟩ => rfl)
  rw [e]
  exact fold_max_bot _ _

theorem colCast_apply (v : FVec Ideal S512 .f32) (r : Fin 512) (u : Fin 1) :
    shapeCast S512x1 v shapeCasts_S512_S512x1 (ix2 r u) = v (ix1 r) :=
  shapeCast_apply v _ _ _ (by
    have hu : u.val = 0 := by omega
    rw [Shape.rowMajor_val_one, Shape.rowMajor_val_two]
    show r.val = r.val * 1 + u.val
    omega)

theorem colMax_apply (v : FVec Ideal S512x1 .f32) (hφ : FKind.Formats .f32)
    (hacc : (0xFF800000#32 : BitVec 32) = FKind.maximumf.neutral .f32 hφ) (j : S1.Idx) :
    multiReduction (F := Ideal) .maximumf [0] S1 v 0xFF800000#32 reduces_S512x1_S1 hφ hacc j
      = Finset.univ.sup fun r : Fin 512 => v (ix2 r (j 0)) := by
  rw [Ideal.multiReduction_maximumf_single, Ideal.ofBits_def, Cert.Mmd.Consts.ofBits_ninf]
  have e : (v ∘ reduces_S512x1_S1.lift j) = fun r : Fin 512 => v (ix2 r (j 0)) :=
    funext fun r => congrArg v (funext fun c => match c with | ⟨0, _⟩ => rfl | ⟨1, _⟩ => rfl)
  rw [e]
  exact fold_max_bot _ _

theorem pay17_apply (x : Vec Ideal S512x256 .f32) (acc : Vec Ideal S1x1 .f32) (j : S1x1.Idx) :
    k0_pay17 (F := Ideal) x acc j
      = max (acc j) (Finset.univ.sup fun r : Fin 512 => Finset.univ.sup fun d : Fin 256 => x (ix2 r d)) := by
  unfold k0_pay17
  rw [shapeCast_self, maximumf_apply]
  congr 1
  rw [shapeCast_addUnit_apply]
  refine (colMax_apply _ _ _ _).trans ?_
  refine Finset.sup_congr rfl fun r _ => ?_
  refine (colCast_apply _ _ _).trans ?_
  exact rowMax_apply _ _ _ _

theorem rowMin_apply (x : Vec Ideal S512x256 .f32) (hφ : FKind.Formats .f32)
    (hacc : (0x7F800000#32 : BitVec 32) = FKind.minimumf.neutral .f32 hφ) (r : Fin 512) :
    multiReduction (F := Ideal) .minimumf [1] S512 x 0x7F800000#32 reduces_S512x256_S512 hφ hacc (ix1 r)
      = Finset.univ.inf fun d : Fin 256 => x (ix2 r d) := by
  rw [multiReduction_minimumf_single, Ideal.ofBits_def, Cert.Mmd.Consts.ofBits_pinf]
  have e : (x ∘ reduces_S512x256_S512.lift (ix1 r)) = fun d : Fin 256 => x (ix2 r d) :=
    funext fun d => congrArg x (funext fun c => match c with | ⟨0, _⟩ => rfl | ⟨1, _⟩ => rfl)
  rw [e]
  exact fold_min_top _ _

theorem colMin_apply (v : FVec Ideal S512x1 .f32) (hφ : FKind.Formats .f32)
    (hacc : (0x7F800000#32 : BitVec 32) = FKind.minimumf.neutral .f32 hφ) (j : S1.Idx) :
    multiReduction (F := Ideal) .minimumf [0] S1 v 0x7F800000#32 reduces_S512x1_S1 hφ hacc j
      = Finset.univ.inf fun r : Fin 512 => v (ix2 r (j 0)) := by
  rw [multiReduction_minimumf_single, Ideal.ofBits_def, Cert.Mmd.Consts.ofBits_pinf]
  have e : (v ∘ reduces_S512x1_S1.lift j) = fun r : Fin 512 => v (ix2 r (j 0)) :=
    funext fun r => congrArg v (funext fun c => match c with | ⟨0, _⟩ => rfl | ⟨1, _⟩ => rfl)
  rw [e]
  exact fold_min_top _ _

theorem pay18_apply (x : Vec Ideal S512x256 .f32) (acc : Vec Ideal S1x1 .f32) (j : S1x1.Idx) :
    k0_pay18 (F := Ideal) x acc j
      = min (acc j) (Finset.univ.inf fun r : Fin 512 => Finset.univ.inf fun d : Fin 256 => x (ix2 r d)) := by
  unfold k0_pay18
  rw [minimumf_apply]
  congr 1
  rw [shapeCast_addUnit_apply]
  refine (colMin_apply _ _ _ _).trans ?_
  refine Finset.inf_congr rfl fun r _ => ?_
  refine (colCast_apply _ _ _).trans ?_
  exact rowMin_apply _ _ _ _

end Cert.KernelIdeal.Pay

end
-- ==== Proof.KValue.lean ====
import proofs.«167831_j66408784331046_1_alg».proof.Proof.KPieces
import proofs.«167831_j66408784331046_1_alg».proof.Proof.KBlock
import proofs.«167831_j66408784331046_1_alg».proof.Proof.KFinal
import proofs.«167831_j66408784331046_1_alg».proof.Proof.KPay
import proofs.«167831_j66408784331046_1_alg».proof.Proof.KPayExt
import proofs.«167831_j66408784331046_1_alg».proof.Proof.MathBlocks
import proofs.«167831_j66408784331046_1_alg».proof.Proof.AsMat

set_option maxRecDepth 16384

noncomputable section

namespace Cert.KernelIdeal.HandValue

open Cert.KernelIdeal Cert.KernelIdeal.Gen Cert.KernelIdeal.Hand Idealize.ShloMosaic Idealize.ShloMosaic.ValueIdx
open Idealize.ShloMosaic.TcCoe Idealize.SL.Sem
open Cert.Mmd

def bMax (a : Mat) (t : Fin 8) : EReal :=
  Finset.univ.sup fun r : Fin 512 => Finset.univ.sup fun d : Fin 256 => a (blkRow t r) d

def bMin (a : Mat) (t : Fin 8) : EReal :=
  Finset.univ.inf fun r : Fin 512 => Finset.univ.inf fun d : Fin 256 => a (blkRow t r) d

def bSq (a : Mat) (t : Fin 8) : EReal := ∑ r : Fin 512, ∑ d : Fin 256, a (blkRow t r) d * a (blkRow t r) d

def bCol (a : Mat) (d : Fin 256) (t : Fin 8) : EReal := ∑ r : Fin 512, a (blkRow t r) d

theorem mx_eq (a : Mat) : mx a = partSup (bMax a) 7 := by
  rw [partSup_last]; exact sup_blocks fun i => Finset.univ.sup fun d => a i d
theorem mn_eq (a : Mat) : mn a = partInf (bMin a) 7 := by
  rw [partInf_last]; exact inf_blocks fun i => Finset.univ.inf fun d => a i d
theorem sumsq_eq (a : Mat) : sumsq a = partSum (bSq a) 7 := by
  rw [partSum_last]; exact sum_blocks fun i => ∑ d, a i d * a i d
theorem colsum_eq (a : Mat) (d : Fin 256) : colsum a d = partSum (bCol a d) 7 := by
  rw [partSum_last]; exact sum_blocks fun i => a i d

variable (m : (ℓ : Loc nD τ sig) → Buf (Elt Ideal) ℓ)

abbrev matA (c : Dev nD) : Cert.Mmd.Mat := Cert.Mmd.asMat (m ((c.tc : Thread nD τ).loc main_arg0))
abbrev matB (c : Dev nD) : Cert.Mmd.Mat := Cert.Mmd.asMat (m ((c.tc : Thread nD τ).loc main_arg1))

abbrev blkOf (t : Fin cfg0.N) : Fin 8 := ⟨t.val, lt_of_lt_of_eq t.isLt N_0⟩

theorem sblk_max (c : Dev nD) (t : Fin cfg0.N) :
    (Finset.univ.sup fun r : Fin 512 => Finset.univ.sup fun d : Fin 256 => sblk m c t (ix2 r d)) = bMax (matA m c) (blkOf t) :=
  Finset.sup_congr rfl fun r _ => Finset.sup_congr rfl fun d _ => sblk_apply m c t r d
theorem sblk_min (c : Dev nD) (t : Fin cfg0.N) :
    (Finset.univ.inf fun r : Fin 512 => Finset.univ.inf fun d : Fin 256 => sblk m c t (ix2 r d)) = bMin (matA m c) (blkOf t) :=
  Finset.inf_congr rfl fun r _ => Finset.inf_congr rfl fun d _ => sblk_apply m c t r d
theorem sblk_sq (c : Dev nD) (t : Fin cfg0.N) :
    (∑ r : Fin 512, ∑ d : Fin 256, sblk m c t (ix2 r d) * sblk m c t (ix2 r d)) = bSq (matA m c) (blkOf t) :=
  Finset.sum_congr rfl fun r _ => Finset.sum_congr rfl fun d _ => by rw [sblk_apply m c t r d]
theorem tblk_sq (c : Dev nD) (t : Fin cfg0.N) :
    (∑ r : Fin 512, ∑ d : Fin 256, tblk m c t (ix2 r d) * tblk m c t (ix2 r d)) = bSq (matB m c) (blkOf t) :=
  Finset.sum_congr rfl fun r _ => Finset.sum_congr rfl fun d _ => by rw [tblk_apply m c t r d]
theorem sblk_col (c : Dev nD) (t : Fin cfg0.N) (d : Fin 256) :
    (∑ r : Fin 512, sblk m c t (ix2 r d)) = bCol (matA m c) d (blkOf t) :=
  Finset.sum_congr rfl fun r _ => sblk_apply m c t r d
theorem tblk_col (c : Dev nD) (t : Fin cfg0.N) (d : Fin 256) :
    (∑ r : Fin 512, tblk m c t (ix2 r d)) = bCol (matB m c) d (blkOf t) :=
  Finset.sum_congr rfl fun r _ => tblk_apply m c t r d

/-- Each carried value after a point is the body's update, by that point's block, of the reset value (first point) or of what the point before left. -/
theorem scr0_zero (c : Dev nD) (h : 0 < cfg0.N) :
    (outsAt0 m c 0 h).2.2.2.1 = k0_pay17 (sblk m c ⟨0, h⟩) (k0_pay7 (F := Ideal)) := by
  rw [outsAt0_A m c ⟨0, h⟩ rfl (by decide : ¬ 0 % 8 = 7)]
  dsimp only [outs0_A]
  exact sout0_A_0_eq ..

theorem scr0_succ (c : Dev nD) (n : ℕ) (h : n + 1 < cfg0.N) :
    (outsAt0 m c (n + 1) h).2.2.2.1 = k0_pay17 (sblk m c ⟨n + 1, h⟩) (outsAt0 m c n (Nat.lt_of_succ_lt h)).2.2.2.1 := by
  have hN : cfg0.N = 8 := N_0
  have h0 : ¬(⟨n + 1, h⟩ : Fin cfg0.N).val % 8 = 0 := by dsimp only; omega
  by_cases h1 : (⟨n + 1, h⟩ : Fin cfg0.N).val % 8 = 7
  · rw [outsAt0_C m c ⟨n + 1, h⟩ h0 h1]
    dsimp only [outs0_C]
    exact sout0_C_0_eq ..
  · rw [outsAt0_B m c ⟨n + 1, h⟩ h0 h1]
    dsimp only [outs0_B]
    exact sout0_B_0_eq ..

theorem scr1_zero (c : Dev nD) (h : 0 < cfg0.N) :
    (outsAt0 m c 0 h).2.2.2.2.1 = k0_pay1 (k0_pay18 (sblk m c ⟨0, h⟩) (k0_pay8 (F := Ideal))) := by
  rw [outsAt0_A m c ⟨0, h⟩ rfl (by decide : ¬ 0 % 8 = 7)]
  dsimp only [outs0_A]
  exact sout0_A_1_eq ..

theorem scr1_succ (c : Dev nD) (n : ℕ) (h : n + 1 < cfg0.N) :
    (outsAt0 m c (n + 1) h).2.2.2.2.1 = k0_pay1 (k0_pay18 (sblk m c ⟨n + 1, h⟩) (outsAt0 m c n (Nat.lt_of_succ_lt h)).2.2.2.2.1) := by
  have hN : cfg0.N = 8 := N_0
  have h0 : ¬(⟨n + 1, h⟩ : Fin cfg0.N).val % 8 = 0 := by dsimp only; omega
  by_cases h1 : (⟨n + 1, h⟩ : Fin cfg0.N).val % 8 = 7
  · rw [outsAt0_C m c ⟨n + 1, h⟩ h0 h1]
    dsimp only [outs0_C]
    exact sout0_C_1_eq ..
  · rw [outsAt0_B m c ⟨n + 1, h⟩ h0 h1]
    dsimp only [outs0_B]
    exact sout0_B_1_eq ..

theorem scr2_zero (c : Dev nD) (h : 0 < cfg0.N) :
    (outsAt0 m c 0 h).2.2.2.2.2.1 = k0_pay2 (k0_pay13 (sblk m c ⟨0, h⟩)) (k0_pay9 (F := Ideal)) := by
  rw [outsAt0_A m c ⟨0, h⟩ rfl (by decide : ¬ 0 % 8 = 7)]
  dsimp only [outs0_A]
  exact sout0_A_2_eq ..

theorem scr2_succ (c : Dev nD) (n : ℕ) (h : n + 1 < cfg0.N) :
    (outsAt0 m c (n + 1) h).2.2.2.2.2.1 = k0_pay2 (k0_pay13 (sblk m c ⟨n + 1, h⟩)) (outsAt0 m c n (Nat.lt_of_succ_lt h)).2.2.2.2.2.1 := by
  have hN : cfg0.N = 8 := N_0
  have h0 : ¬(⟨n + 1, h⟩ : Fin cfg0.N).val % 8 = 0 := by dsimp only; omega
  by_cases h1 : (⟨n + 1, h⟩ : Fin cfg0.N).val % 8 = 7
  · rw [outsAt0_C m c ⟨n + 1, h⟩ h0 h1]
    dsimp only [outs0_C]
    exact sout0_C_2_eq ..
  · rw [outsAt0_B m c ⟨n + 1, h⟩ h0 h1]
    dsimp only [outs0_B]
    exact sout0_B_2_eq ..

theorem scr3_zero (c : Dev nD) (h : 0 < cfg0.N) :
    (outsAt0 m c 0 h).2.2.2.2.2.2.1 = k0_pay3 (k0_pay14 (tblk m c ⟨0, h⟩)) (k0_pay10 (F := Ideal)) := by
  rw [outsAt0_A m c ⟨0, h⟩ rfl (by decide : ¬ 0 % 8 = 7)]
  dsimp only [outs0_A]
  exact sout0_A_3_eq ..

theorem scr3_succ (c : Dev nD) (n : ℕ) (h : n + 1 < cfg0.N) :
    (outsAt0 m c (n + 1) h).2.2.2.2.2.2.1 = k0_pay3 (k0_pay14 (tblk m c ⟨n + 1, h⟩)) (outsAt0 m c n (Nat.lt_of_succ_lt h)).2.2.2.2.2.2.1 := by
  have hN : cfg0.N = 8 := N_0
  have h0 : ¬(⟨n + 1, h⟩ : Fin cfg0.N).val % 8 = 0 := by dsimp only; omega
  by_cases h1 : (⟨n + 1, h⟩ : Fin cfg0.N).val % 8 = 7
  · rw [outsAt0_C m c ⟨n + 1, h⟩ h0 h1]
    dsimp only [outs0_C]
    exact sout0_C_3_eq ..
  · rw [outsAt0_B m c ⟨n + 1, h⟩ h0 h1]
    dsimp only [outs0_B]
    exact sout0_B_3_eq ..

theorem scr4_zero (c : Dev nD) (h : 0 < cfg0.N) :
    (outsAt0 m c 0 h).2.2.2.2.2.2.2.1 = k0_pay4 (k0_pay15 (sblk m c ⟨0, h⟩)) (k0_pay11 (F := Ideal)) := by
  rw [outsAt0_A m c ⟨0, h⟩ rfl (by decide : ¬ 0 % 8 = 7)]
  dsimp only [outs0_A]
  exact sout0_A_4_eq ..

theorem scr4_succ (c : Dev nD) (n : ℕ) (h : n + 1 < cfg0.N) :
    (outsAt0 m c (n + 1) h).2.2.2.2.2.2.2.1 = k0_pay4 (k0_pay15 (sblk m c ⟨n + 1, h⟩)) (outsAt0 m c n (Nat.lt_of_succ_lt h)).2.2.2.2.2.2.2.1 := by
  have hN : cfg0.N = 8 := N_0
  have h0 : ¬(⟨n + 1, h⟩ : Fin cfg0.N).val % 8 = 0 := by dsimp only; omega
  by_cases h1 : (⟨n + 1, h⟩ : Fin cfg0.N).val % 8 = 7
  · rw [outsAt0_C m c ⟨n + 1, h⟩ h0 h1]
    dsimp only [outs0_C]
    exact sout0_C_4_eq ..
  · rw [outsAt0_B m c ⟨n + 1, h⟩ h0 h1]
    dsimp only [outs0_B]
    exact sout0_B_4_eq ..

theorem scr5_zero (c : Dev nD) (h : 0 < cfg0.N) :
    (outsAt0 m c 0 h).2.2.2.2.2.2.2.2 = k0_pay5 (k0_pay16 (tblk m c ⟨0, h⟩)) (k0_pay12 (F := Ideal)) := by
  rw [outsAt0_A m c ⟨0, h⟩ rfl (by decide : ¬ 0 % 8 = 7)]
  dsimp only [outs0_A]
  exact sout0_A_5_eq ..

theorem scr5_succ (c : Dev nD) (n : ℕ) (h : n + 1 < cfg0.N) :
    (outsAt0 m c (n + 1) h).2.2.2.2.2.2.2.2 = k0_pay5 (k0_pay16 (tblk m c ⟨n + 1, h⟩)) (outsAt0 m c n (Nat.lt_of_succ_lt h)).2.2.2.2.2.2.2.2 := by
  have hN : cfg0.N = 8 := N_0
  have h0 : ¬(⟨n + 1, h⟩ : Fin cfg0.N).val % 8 = 0 := by dsimp only; omega
  by_cases h1 : (⟨n + 1, h⟩ : Fin cfg0.N).val % 8 = 7
  · rw [outsAt0_C m c ⟨n + 1, h⟩ h0 h1]
    dsimp only [outs0_C]
    exact sout0_C_5_eq ..
  · rw [outsAt0_B m c ⟨n + 1, h⟩ h0 h1]
    dsimp only [outs0_B]
    exact sout0_B_5_eq ..

/-- So after point `n` each carried value is its reduction over blocks `0 … n`: induction on `n`. -/
theorem inv0 (c : Dev nD) : ∀ (n : ℕ) (hn : n < cfg0.N) (j : S1x1.Idx),
    (outsAt0 m c n hn).2.2.2.1 j = partSup (bMax (matA m c)) n
  | 0, hn, j => by
    refine (congrFun (scr0_zero m c hn) j).trans ?_
    refine (Pay.pay17_apply (sblk m c ⟨0, hn⟩) (k0_pay7 (F := Ideal)) j).trans ?_
    rw [Pay.pay7_apply, sblk_max m c ⟨0, hn⟩]
    exact (partSup_zero (bMax (matA m c))).symm
  | n + 1, hn, j => by
    have hN : cfg0.N = 8 := N_0
    refine (congrFun (scr0_succ m c n hn) j).trans ?_
    refine (Pay.pay17_apply (sblk m c ⟨n + 1, hn⟩) _ j).trans ?_
    rw [inv0 c n (Nat.lt_of_succ_lt hn) j, sblk_max m c ⟨n + 1, hn⟩]
    exact (partSup_succ (bMax (matA m c)) n (by omega)).symm

theorem inv1 (c : Dev nD) : ∀ (n : ℕ) (hn : n < cfg0.N) (j : S1x1.Idx),
    (outsAt0 m c n hn).2.2.2.2.1 j = partInf (bMin (matA m c)) n
  | 0, hn, j => by
    refine (congrFun (scr1_zero m c hn) j).trans ?_
    rw [Pay.pay1_eq]
    refine (Pay.pay18_apply (sblk m c ⟨0, hn⟩) (k0_pay8 (F := Ideal)) j).trans ?_
    rw [Pay.pay8_apply, sblk_min m c ⟨0, hn⟩]
    exact (partInf_zero (bMin (matA m c))).symm
  | n + 1, hn, j => by
    have hN : cfg0.N = 8 := N_0
    refine (congrFun (scr1_succ m c n hn) j).trans ?_
    rw [Pay.pay1_eq]
    refine (Pay.pay18_apply (sblk m c ⟨n + 1, hn⟩) _ j).trans ?_
    rw [inv1 c n (Nat.lt_of_succ_lt hn) j, sblk_min m c ⟨n + 1, hn⟩]
    exact (partInf_succ (bMin (matA m c)) n (by omega)).symm

theorem inv2 (c : Dev nD) : ∀ (n : ℕ) (hn : n < cfg0.N) (j : S1x1.Idx),
    (outsAt0 m c n hn).2.2.2.2.2.1 j = partSum (bSq (matA m c)) n
  | 0, hn, j => by
    refine (congrFun (scr2_zero m c hn) j).trans ?_
    refine (Pay.pay2_apply _ (k0_pay9 (F := Ideal)) j).trans ?_
    rw [Pay.pay9_apply, Pay.pay13_apply, sblk_sq m c ⟨0, hn⟩]
    exact (partSum_zero (bSq (matA m c))).symm
  | n + 1, hn, j => by
    have hN : cfg0.N = 8 := N_0
    refine (congrFun (scr2_succ m c n hn) j).trans ?_
    refine (Pay.pay2_apply _ _ j).trans ?_
    rw [inv2 c n (Nat.lt_of_succ_lt hn) j, Pay.pay13_apply, sblk_sq m c ⟨n + 1, hn⟩]
    exact (partSum_succ (bSq (matA m c)) n (by omega)).symm

theorem inv3 (c : Dev nD) : ∀ (n : ℕ) (hn : n < cfg0.N) (j : S1x1.Idx),
    (outsAt0 m c n hn).2.2.2.2.2.2.1 j = partSum (bSq (matB m c)) n
  | 0, hn, j => by
    refine (congrFun (scr3_zero m c hn) j).trans ?_
    refine (Pay.pay3_apply _ (k0_pay10 (F := Ideal)) j).trans ?_
    rw [Pay.pay10_apply, Pay.pay14_apply, tblk_sq m c ⟨0, hn⟩]
    exact (partSum_zero (bSq (matB m c))).symm
  | n + 1, hn, j => by
    have hN : cfg0.N = 8 := N_0
    refine (congrFun (scr3_succ m c n hn) j).trans ?_
    refine (Pay.pay3_apply _ _ j).trans ?_
    rw [inv3 c n (Nat.lt_of_succ_lt hn) j, Pay.pay14_apply, tblk_sq m c ⟨n + 1, hn⟩]
    exact (partSum_succ (bSq (matB m c)) n (by omega)).symm

theorem inv4 (c : Dev nD) : ∀ (n : ℕ) (hn : n < cfg0.N) (u : Fin 1) (d : Fin 256),
    (outsAt0 m c n hn).2.2.2.2.2.2.2.1 (ix2 u d) = partSum (bCol (matA m c) d) n
  | 0, hn, u, d => by
    refine (congrFun (scr4_zero m c hn) (ix2 u d)).trans ?_
    refine (Pay.pay4_apply _ (k0_pay11 (F := Ideal)) (ix2 u d)).trans ?_
    rw [Pay.pay11_apply, Pay.pay15_apply, sblk_col m c ⟨0, hn⟩ d]
    exact (partSum_zero (bCol (matA m c) d)).symm
  | n + 1, hn, u, d => by
    have hN : cfg0.N = 8 := N_0
    refine (congrFun (scr4_succ m c n hn) (ix2 u d)).trans ?_
    refine (Pay.pay4_apply _ _ (ix2 u d)).trans ?_
    rw [inv4 c n (Nat.lt_of_succ_lt hn) u d, Pay.pay15_apply, sblk_col m c ⟨n + 1, hn⟩ d]
    exact (partSum_succ (bCol (matA m c) d) n (by omega)).symm

theorem inv5 (c : Dev nD) : ∀ (n : ℕ) (hn : n < cfg0.N) (u : Fin 1) (d : Fin 256),
    (outsAt0 m c n hn).2.2.2.2.2.2.2.2 (ix2 u d) = partSum (bCol (matB m c) d) n
  | 0, hn, u, d => by
    refine (congrFun (scr5_zero m c hn) (ix2 u d)).trans ?_
    refine (Pay.pay5_apply _ (k0_pay12 (F := Ideal)) (ix2 u d)).trans ?_
    rw [Pay.pay12_apply, Pay.pay16_apply, tblk_col m c ⟨0, hn⟩ d]
    exact (partSum_zero (bCol (matB m c) d)).symm
  | n + 1, hn, u, d => by
    have hN : cfg0.N = 8 := N_0
    refine (congrFun (scr5_succ m c n hn) (ix2 u d)).trans ?_
    refine (Pay.pay5_apply _ _ (ix2 u d)).trans ?_
    rw [inv5 c n (Nat.lt_of_succ_lt hn) u d, Pay.pay16_apply, tblk_col m c ⟨n + 1, hn⟩ d]
    exact (partSum_succ (bCol (matB m c) d) n (by omega)).symm

/-- At the last point the first output is the four one-entry values side by side, the other two are the rows of column sums. -/
theorem out2_succ (c : Dev nD) (n : ℕ) (h : n + 1 < cfg0.N) (h1 : (n + 1) % 8 = 7) :
    (outsAt0 m c (n + 1) h).1 = k0_pay6 (outsAt0 m c (n + 1) h).2.2.2.1 (outsAt0 m c (n + 1) h).2.2.2.2.1
      (outsAt0 m c (n + 1) h).2.2.2.2.2.1 (outsAt0 m c (n + 1) h).2.2.2.2.2.2.1 := by
  have hN : cfg0.N = 8 := N_0
  have h0 : ¬(⟨n + 1, h⟩ : Fin cfg0.N).val % 8 = 0 := by dsimp only; omega
  rw [scr0_succ m c n h, scr1_succ m c n h, scr2_succ m c n h, scr3_succ m c n h]
  rw [outsAt0_C m c ⟨n + 1, h⟩ h0 h1]
  dsimp only [outs0_C]
  exact out0_C_2_eq ..

theorem out3_succ (c : Dev nD) (n : ℕ) (h : n + 1 < cfg0.N) (h1 : (n + 1) % 8 = 7) :
    (outsAt0 m c (n + 1) h).2.1 = (outsAt0 m c (n + 1) h).2.2.2.2.2.2.2.1 := by
  have hN : cfg0.N = 8 := N_0
  have h0 : ¬(⟨n + 1, h⟩ : Fin cfg0.N).val % 8 = 0 := by dsimp only; omega
  rw [scr4_succ m c n h]
  rw [outsAt0_C m c ⟨n + 1, h⟩ h0 h1]
  dsimp only [outs0_C]
  exact out0_C_3_eq ..

theorem out4_succ (c : Dev nD) (n : ℕ) (h : n + 1 < cfg0.N) (h1 : (n + 1) % 8 = 7) :
    (outsAt0 m c (n + 1) h).2.2.1 = (outsAt0 m c (n + 1) h).2.2.2.2.2.2.2.2 := by
  have hN : cfg0.N = 8 := N_0
  have h0 : ¬(⟨n + 1, h⟩ : Fin cfg0.N).val % 8 = 0 := by dsimp only; omega
  rw [scr5_succ m c n h]
  rw [outsAt0_C m c ⟨n + 1, h⟩ h0 h1]
  dsimp only [outs0_C]
  exact out0_C_4_eq ..

theorem last_is_seven (n : ℕ) (h : n + 1 < cfg0.N) (h1 : (n + 1) % 8 = 7) : n + 1 = 7 := by
  have hN : cfg0.N = 8 := N_0
  omega

theorem last_mx (c : Dev nD) (n : ℕ) (h : n + 1 < cfg0.N) (h1 : (n + 1) % 8 = 7) (u : Fin 1) :
    (outsAt0 m c (n + 1) h).1 (ix2 u (0 : Fin 4)) = mx (matA m c) := by
  refine (congrFun (out2_succ m c n h h1) (ix2 u (0 : Fin 4))).trans ?_
  refine (Pay.pay6_apply_0 _ _ _ _ u).trans ?_
  rw [inv0 m c (n + 1) h, last_is_seven n h h1]; exact (mx_eq (matA m c)).symm
theorem last_mn (c : Dev nD) (n : ℕ) (h : n + 1 < cfg0.N) (h1 : (n + 1) % 8 = 7) (u : Fin 1) :
    (outsAt0 m c (n + 1) h).1 (ix2 u (1 : Fin 4)) = mn (matA m c) := by
  refine (congrFun (out2_succ m c n h h1) (ix2 u (1 : Fin 4))).trans ?_
  refine (Pay.pay6_apply_1 _ _ _ _ u).trans ?_
  rw [inv1 m c (n + 1) h, last_is_seven n h h1]; exact (mn_eq (matA m c)).symm
theorem last_qs (c : Dev nD) (n : ℕ) (h : n + 1 < cfg0.N) (h1 : (n + 1) % 8 = 7) (u : Fin 1) :
    (outsAt0 m c (n + 1) h).1 (ix2 u (2 : Fin 4)) = sumsq (matA m c) := by
  refine (congrFun (out2_succ m c n h h1) (ix2 u (2 : Fin 4))).trans ?_
  refine (Pay.pay6_apply_2 _ _ _ _ u).trans ?_
  rw [inv2 m c (n + 1) h, last_is_seven n h h1]; exact (sumsq_eq (matA m c)).symm
theorem last_qt (c : Dev nD) (n : ℕ) (h : n + 1 < cfg0.N) (h1 : (n + 1) % 8 = 7) (u : Fin 1) :
    (outsAt0 m c (n + 1) h).1 (ix2 u (3 : Fin 4)) = sumsq (matB m c) := by
  refine (congrFun (out2_succ m c n h h1) (ix2 u (3 : Fin 4))).trans ?_
  refine (Pay.pay6_apply_3 _ _ _ _ u).trans ?_
  rw [inv3 m c (n + 1) h, last_is_seven n h h1]; exact (sumsq_eq (matB m c)).symm
theorem last_cs (c : Dev nD) (n : ℕ) (h : n + 1 < cfg0.N) (h1 : (n + 1) % 8 = 7) (u : Fin 1) (d : Fin 256) :
    (outsAt0 m c (n + 1) h).2.1 (ix2 u d) = colsum (matA m c) d := by
  rw [out3_succ m c n h h1, inv4 m c (n + 1) h u d, last_is_seven n h h1]; exact (colsum_eq (matA m c) d).symm
theorem last_ct (c : Dev nD) (n : ℕ) (h : n + 1 < cfg0.N) (h1 : (n + 1) % 8 = 7) (u : Fin 1) (d : Fin 256) :
    (outsAt0 m c (n + 1) h).2.2.1 (ix2 u d) = colsum (matB m c) d := by
  rw [out4_succ m c n h h1, inv5 m c (n + 1) h u d, last_is_seven n h h1]; exact (colsum_eq (matB m c) d).symm

theorem stats_mx (c : Dev nD) :
    ((dats (F := Ideal) m 0 c).arrAt 2 cfg0.N : S1x4.Idx → EReal) (ix2 (0 : Fin 1) (0 : Fin 4)) = Cert.Mmd.mx (matA m c) := by
  rw [arrAt2_final m c]; exact last_mx m c 6 h7 rfl 0
theorem stats_mn (c : Dev nD) :
    ((dats (F := Ideal) m 0 c).arrAt 2 cfg0.N : S1x4.Idx → EReal) (ix2 (0 : Fin 1) (1 : Fin 4)) = Cert.Mmd.mn (matA m c) := by
  rw [arrAt2_final m c]; exact last_mn m c 6 h7 rfl 0
theorem stats_qs (c : Dev nD) :
    ((dats (F := Ideal) m 0 c).arrAt 2 cfg0.N : S1x4.Idx → EReal) (ix2 (0 : Fin 1) (2 : Fin 4)) = Cert.Mmd.sumsq (matA m c) := by
  rw [arrAt2_final m c]; exact last_qs m c 6 h7 rfl 0
theorem stats_qt (c : Dev nD) :
    ((dats (F := Ideal) m 0 c).arrAt 2 cfg0.N : S1x4.Idx → EReal) (ix2 (0 : Fin 1) (3 : Fin 4)) = Cert.Mmd.sumsq (matB m c) := by
  rw [arrAt2_final m c]; exact last_qt m c 6 h7 rfl 0
theorem cs_final (c : Dev nD) (d : Fin 256) :
    ((dats (F := Ideal) m 0 c).arrAt 3 cfg0.N : S1x256.Idx → EReal) (ix2 (0 : Fin 1) d) = Cert.Mmd.colsum (matA m c) d := by
  rw [arrAt3_final m c]; exact last_cs m c 6 h7 rfl 0 d
theorem ct_final (c : Dev nD) (d : Fin 256) :
    ((dats (F := Ideal) m 0 c).arrAt 4 cfg0.N : S1x256.Idx → EReal) (ix2 (0 : Fin 1) d) = Cert.Mmd.colsum (matB m c) d := by
  rw [arrAt4_final m c]; exact last_ct m c 6 h7 rfl 0 d

end Cert.KernelIdeal.HandValue

end
-- ==== Proof.KTail.lean ====
import proofs.«167831_j66408784331046_1_alg».proof.Proof.Gen.KernelIdeal.Launch
import proofs.«167831_j66408784331046_1_alg».proof.Proof.Spec
import proofs.«167831_j66408784331046_1_alg».proof.Proof.Consts
import Idealize.ShloMosaic.Lib.StableHlo.Run
import Idealize.ShloMosaic.Lib.IdealHost
import Idealize.ShloMosaic.Lib.Pipeline.Value
import Idealize.ShloMosaic.Lib.ValueIdx
import Idealize.ShloMosaic.Lib.ValueLayout

set_option maxRecDepth 8192

noncomputable section

namespace Cert.KernelIdeal.Tail

open Cert.KernelIdeal Cert.KernelIdeal.Gen
open Idealize.ShloMosaic Idealize.ShloMosaic.TcCoe Idealize.SL.Sem Idealize.ShloMosaic.StableHlo
open Idealize.ShloMosaic.ValueIdx

def idxEquiv1 {n : Nat} : (⟨1, ![n]⟩ : Shape).Idx ≃ Fin n where
  toFun i := i 0
  invFun d := ix1 d
  left_inv i := (eq_ix1 i).symm
  right_inv _ := rfl

theorem sum_idx1 {M : Type*} [AddCommMonoid M] {n : Nat} (f : (⟨1, ![n]⟩ : Shape).Idx → M) :
    ∑ i, f i = ∑ d : Fin n, f (ix1 d) := by
  rw [← Equiv.sum_comp (idxEquiv1 (n := n)).symm f]
  rfl

theorem reduce_read (x : FVec Ideal S256 .f32) (init : FVec Ideal S_ .f32) (j : S_.Idx) :
    Host.reduceAdd x init reducesTo_S256_S_d0 h_S_ j = init (Shape.Idx.first h_S_) + ∑ d : Fin 256, x (ix1 d) := by
  rw [hostReduceAdd_apply, Ideal.hostReduceAdd_total reducesTo_S256_S_d0 (fun b => b.elim0)]
  exact congrArg _ (sum_idx1 (n := 256) x)

theorem vec_read (x : FVec Ideal S1x256 .f32) (i : S256.Idx) :
    shapeCast S256 x shapeCasts_S1x256_S256 i = x (ix2 (0 : Fin 1) (i 0)) := by
  rw [eq_ix1 i]
  exact shapeCast_1a_a_apply x shapeCasts_S1x256_S256 (i 0)

theorem scalar_read (x : FVec Ideal S1x4 .f32) (off : Fin 2 → Nat) (hs : S1x4.Slices off S1x1)
    (j : S_.Idx) (k : S1x4.Idx) (hk : ∀ a : Fin 2, (k a).val = off a) :
    shapeCast S_ (extractStridedSlice S1x1 off x hs) shapeCasts_S1x1_S_ j = x k := by
  rw [shapeCast_apply _ shapeCasts_S1x1_S_ j (ix2 (0 : Fin 1) (0 : Fin 1)) ?_]
  · refine extractStridedSlice_apply off x hs _ k fun a => ?_
    rw [hk a]
    match a with
    | ⟨0, _⟩ => rfl
    | ⟨1, _⟩ => rfl
  · have h1 : (S_.rowMajor j).val < S_.numel := (S_.rowMajor j).isLt
    have h2 : S_.numel = 1 := rfl
    rw [Shape.rowMajor_val_two]
    show 0 * 1 + 0 = _
    omega

def rd0 (st : FVec Ideal S1x4 .f32) : FVec Ideal S_ .f32 :=
  shapeCast S_ (extractStridedSlice S1x1 ![0, 0] st slices_S1x4_S1x1_0_0) shapeCasts_S1x1_S_
def rd1 (st : FVec Ideal S1x4 .f32) : FVec Ideal S_ .f32 :=
  shapeCast S_ (extractStridedSlice S1x1 ![0, 1] st slices_S1x4_S1x1_0_1) shapeCasts_S1x1_S_
def rd2 (st : FVec Ideal S1x4 .f32) : FVec Ideal S_ .f32 :=
  shapeCast S_ (extractStridedSlice S1x1 ![0, 2] st slices_S1x4_S1x1_0_2) shapeCasts_S1x1_S_
def rd3 (st : FVec Ideal S1x4 .f32) : FVec Ideal S_ .f32 :=
  shapeCast S_ (extractStridedSlice S1x1 ![0, 3] st slices_S1x4_S1x1_0_3) shapeCasts_S1x1_S_

def sg (st : FVec Ideal S1x4 .f32) : FVec Ideal S_ .f32 := subf (rd0 st) (rd1 st)

def vS (st : FVec Ideal S1x4 .f32) (c : FVec Ideal S1x256 .f32) : FVec Ideal S256 .f32 :=
  Host.divf (shapeCast S256 c shapeCasts_S1x256_S256) (broadcastInDim S256 ![] bcast_S_S256 (sg st))

def q (st : FVec Ideal S1x4 .f32) : FVec Ideal S_ .f32 :=
  addf (Host.divf (rd2 st) (mulf (sg st) (sg st))) (Host.divf (rd3 st) (mulf (sg st) (sg st)))

def cd (st : FVec Ideal S1x4 .f32) (cs ct : FVec Ideal S1x256 .f32) : FVec Ideal S_ .f32 :=
  Host.reduceAdd (mulf (addf (vS st cs) (vS st ct)) (addf (vS st cs) (vS st ct))) (constant (F := Ideal) S_ .f32 0x00000000#32)
    reducesTo_S256_S_d0 h_S_

def bw (st : FVec Ideal S1x4 .f32) (cs ct : FVec Ideal S1x256 .f32) : FVec Ideal S_ .f32 :=
  Host.divf (Host.divf (Host.divf
    (subf (mulf (constant (F := Ideal) S_ .f32 0x46800000#32) (q st)) (mulf (constant (F := Ideal) S_ .f32 0x40000000#32) (cd st cs ct)))
    (constant (F := Ideal) S_ .f32 0x43800000#32)) (constant (F := Ideal) S_ .f32 0x4C7FF800#32)) (constant (F := Ideal) S_ .f32 0x40800000#32)

def ib (st : FVec Ideal S1x4 .f32) (cs ct : FVec Ideal S1x256 .f32) : FVec Ideal S_ .f32 :=
  addf (addf (addf (addf (addf (constant (F := Ideal) S_ .f32 0x00000000#32)
    (Host.divf (constant (F := Ideal) S_ .f32 0x3F800000#32) (mulf (bw st cs ct) (constant (F := Ideal) S_ .f32 0x3F800000#32))))
    (Host.divf (constant (F := Ideal) S_ .f32 0x3F800000#32) (mulf (bw st cs ct) (constant (F := Ideal) S_ .f32 0x40000000#32))))
    (Host.divf (constant (F := Ideal) S_ .f32 0x3F800000#32) (mulf (bw st cs ct) (constant (F := Ideal) S_ .f32 0x40800000#32))))
    (Host.divf (constant (F := Ideal) S_ .f32 0x3F800000#32) (mulf (bw st cs ct) (constant (F := Ideal) S_ .f32 0x41000000#32))))
    (Host.divf (constant (F := Ideal) S_ .f32 0x3F800000#32) (mulf (bw st cs ct) (constant (F := Ideal) S_ .f32 0x41800000#32)))

def df (st : FVec Ideal S1x4 .f32) (cs ct : FVec Ideal S1x256 .f32) : FVec Ideal S_ .f32 :=
  Host.reduceAdd (mulf (subf (vS st cs) (vS st ct)) (subf (vS st cs) (vS st ct))) (constant (F := Ideal) S_ .f32 0x00000000#32)
    reducesTo_S256_S_d0 h_S_

def out (st : FVec Ideal S1x4 .f32) (cs ct : FVec Ideal S1x256 .f32) : FVec Ideal S_ .f32 :=
  mulf (Host.divf (mulf (ib st cs ct) (constant (F := Ideal) S_ .f32 0x40000000#32)) (constant (F := Ideal) S_ .f32 0x4F800000#32)) (df st cs ct)

section Values
variable (st : FVec Ideal S1x4 .f32) (cs ct : FVec Ideal S1x256 .f32) (j : S_.Idx)

theorem rd0_apply : rd0 st j = st (ix2 (0 : Fin 1) (0 : Fin 4)) :=
  scalar_read st _ _ j _ (fun a => match a with | ⟨0, _⟩ => rfl | ⟨1, _⟩ => rfl)
theorem rd1_apply : rd1 st j = st (ix2 (0 : Fin 1) (1 : Fin 4)) :=
  scalar_read st _ _ j _ (fun a => match a with | ⟨0, _⟩ => rfl | ⟨1, _⟩ => rfl)
theorem rd2_apply : rd2 st j = st (ix2 (0 : Fin 1) (2 : Fin 4)) :=
  scalar_read st _ _ j _ (fun a => match a with | ⟨0, _⟩ => rfl | ⟨1, _⟩ => rfl)
theorem rd3_apply : rd3 st j = st (ix2 (0 : Fin 1) (3 : Fin 4)) :=
  scalar_read st _ _ j _ (fun a => match a with | ⟨0, _⟩ => rfl | ⟨1, _⟩ => rfl)

theorem sg_apply : sg st j = st (ix2 (0 : Fin 1) (0 : Fin 4)) - st (ix2 (0 : Fin 1) (1 : Fin 4)) := by
  simp only [sg, subf_apply, rd0_apply, rd1_apply]

theorem vS_apply (c : FVec Ideal S1x256 .f32) (d : Fin 256) :
    vS st c (ix1 d) = Cert.Mmd.kS (st (ix2 (0 : Fin 1) (0 : Fin 4)) - st (ix2 (0 : Fin 1) (1 : Fin 4)))
      (fun d => c (ix2 (0 : Fin 1) d)) d := by
  unfold vS Cert.Mmd.kS
  rw [hostDivf_apply, vec_read, broadcastInDim_scalar_apply bcast_S_S256 (sg st) (ix1 d), sg_apply]

theorem q_apply : q st j = Cert.Mmd.kQ (st (ix2 (0 : Fin 1) (0 : Fin 4)) - st (ix2 (0 : Fin 1) (1 : Fin 4)))
    (st (ix2 (0 : Fin 1) (2 : Fin 4))) (st (ix2 (0 : Fin 1) (3 : Fin 4))) := by
  simp only [q, addf_apply, hostDivf_apply, mulf_apply, sg_apply, rd2_apply, rd3_apply, Cert.Mmd.kQ]

theorem cd_apply : cd st cs ct j = Cert.Mmd.kCdot (st (ix2 (0 : Fin 1) (0 : Fin 4)) - st (ix2 (0 : Fin 1) (1 : Fin 4)))
    (fun d => cs (ix2 (0 : Fin 1) d)) (fun d => ct (ix2 (0 : Fin 1) d)) := by
  simp only [cd, reduce_read, mulf_apply, addf_apply, vS_apply, constant_apply, Cert.Mmd.Consts.ofBits_zero, Cert.Mmd.kCdot]

theorem df_apply : df st cs ct j = Cert.Mmd.kDiff (st (ix2 (0 : Fin 1) (0 : Fin 4)) - st (ix2 (0 : Fin 1) (1 : Fin 4)))
    (fun d => cs (ix2 (0 : Fin 1) d)) (fun d => ct (ix2 (0 : Fin 1) d)) := by
  simp only [df, reduce_read, mulf_apply, subf_apply, vS_apply, constant_apply, Cert.Mmd.Consts.ofBits_zero, Cert.Mmd.kDiff]

theorem bw_apply : bw st cs ct j = Cert.Mmd.kBw (st (ix2 (0 : Fin 1) (0 : Fin 4)) - st (ix2 (0 : Fin 1) (1 : Fin 4)))
    (st (ix2 (0 : Fin 1) (2 : Fin 4))) (st (ix2 (0 : Fin 1) (3 : Fin 4)))
    (fun d => cs (ix2 (0 : Fin 1) d)) (fun d => ct (ix2 (0 : Fin 1) d)) := by
  simp only [bw, hostDivf_apply, subf_apply, mulf_apply, constant_apply, q_apply, cd_apply,
    Cert.Mmd.Consts.ofBits_16384, Cert.Mmd.Consts.ofBits_two, Cert.Mmd.Consts.ofBits_256, Cert.Mmd.Consts.ofBits_67100672,
    Cert.Mmd.Consts.ofBits_four, Cert.Mmd.kBw]

theorem ib_apply : ib st cs ct j = Cert.Mmd.invBw (Cert.Mmd.kBw (st (ix2 (0 : Fin 1) (0 : Fin 4)) - st (ix2 (0 : Fin 1) (1 : Fin 4)))
    (st (ix2 (0 : Fin 1) (2 : Fin 4))) (st (ix2 (0 : Fin 1) (3 : Fin 4)))
    (fun d => cs (ix2 (0 : Fin 1) d)) (fun d => ct (ix2 (0 : Fin 1) d))) := by
  simp only [ib, hostDivf_apply, addf_apply, mulf_apply, constant_apply, bw_apply,
    Cert.Mmd.Consts.ofBits_zero, Cert.Mmd.Consts.ofBits_one, Cert.Mmd.Consts.ofBits_two, Cert.Mmd.Consts.ofBits_four,
    Cert.Mmd.Consts.ofBits_eight, Cert.Mmd.Consts.ofBits_sixteen, Cert.Mmd.invBw]

theorem out_apply : out st cs ct j = Cert.Mmd.kernelTail (st (ix2 (0 : Fin 1) (0 : Fin 4))) (st (ix2 (0 : Fin 1) (1 : Fin 4)))
    (st (ix2 (0 : Fin 1) (2 : Fin 4))) (st (ix2 (0 : Fin 1) (3 : Fin 4)))
    (fun d => cs (ix2 (0 : Fin 1) d)) (fun d => ct (ix2 (0 : Fin 1) d)) := by
  simp only [out, hostDivf_apply, mulf_apply, constant_apply, ib_apply, df_apply,
    Cert.Mmd.Consts.ofBits_two, Cert.Mmd.Consts.ofBits_4294967296, Cert.Mmd.kernelTail]

end Values

set_option maxHeartbeats 4000000 in

theorem tail_out (W : Valuation τ sig (Elt Ideal)) :
    StableHlo.after (hostOps1 (F := Ideal)) W (Proc.devRef .tc main_v50)
      = out (W (Proc.devRef .tc main_v0_0)) (W (Proc.devRef .tc main_v0_1)) (W (Proc.devRef .tc main_v0_2)) := by
  after_results_simp
  rfl

/-- The 70 host operations after the region compute `kernelTail` of the three arrays the region wrote. -/
theorem tail_value (W : Valuation τ sig (Elt Ideal)) :
    StableHlo.after (hostOps1 (F := Ideal)) W (Proc.devRef .tc main_v50)
      = fun _ => Cert.Mmd.kernelTail
          ((W (Proc.devRef .tc main_v0_0) : S1x4.Idx → EReal) (ix2 (0 : Fin 1) (0 : Fin 4)))
          ((W (Proc.devRef .tc main_v0_0) : S1x4.Idx → EReal) (ix2 (0 : Fin 1) (1 : Fin 4)))
          ((W (Proc.devRef .tc main_v0_0) : S1x4.Idx → EReal) (ix2 (0 : Fin 1) (2 : Fin 4)))
          ((W (Proc.devRef .tc main_v0_0) : S1x4.Idx → EReal) (ix2 (0 : Fin 1) (3 : Fin 4)))
          (fun d => (W (Proc.devRef .tc main_v0_1) : S1x256.Idx → EReal) (ix2 (0 : Fin 1) (d : Fin 256)))
          (fun d => (W (Proc.devRef .tc main_v0_2) : S1x256.Idx → EReal) (ix2 (0 : Fin 1) (d : Fin 256))) := by
  rw [tail_out]
  funext j
  exact out_apply _ _ _ j

end Cert.KernelIdeal.Tail

end
-- ==== Proof.KOut.lean ====
import proofs.«167831_j66408784331046_1_alg».proof.Proof.KBody
import proofs.«167831_j66408784331046_1_alg».proof.Proof.KValue
import proofs.«167831_j66408784331046_1_alg».proof.Proof.KTail

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

theorem tail_at (W : Valuation τ sig (Elt Ideal)) (A B : Cert.Mmd.Mat)
    (h0 : (W (Proc.devRef .tc main_v0_0) : S1x4.Idx → EReal) (ix2 (0 : Fin 1) (0 : Fin 4)) = Cert.Mmd.mx A)
    (h1 : (W (Proc.devRef .tc main_v0_0) : S1x4.Idx → EReal) (ix2 (0 : Fin 1) (1 : Fin 4)) = Cert.Mmd.mn A)
    (h2 : (W (Proc.devRef .tc main_v0_0) : S1x4.Idx → EReal) (ix2 (0 : Fin 1) (2 : Fin 4)) = Cert.Mmd.sumsq A)
    (h3 : (W (Proc.devRef .tc main_v0_0) : S1x4.Idx → EReal) (ix2 (0 : Fin 1) (3 : Fin 4)) = Cert.Mmd.sumsq B)
    (h4 : ∀ d : Fin 256, (W (Proc.devRef .tc main_v0_1) : S1x256.Idx → EReal) (ix2 (0 : Fin 1) d) = Cert.Mmd.colsum A d)
    (h5 : ∀ d : Fin 256, (W (Proc.devRef .tc main_v0_2) : S1x256.Idx → EReal) (ix2 (0 : Fin 1) d) = Cert.Mmd.colsum B d) :
    StableHlo.after (hostOps1 (F := Ideal)) W (Proc.devRef .tc main_v50) = fun _ => Cert.Mmd.kernelOut A B := by
  rw [Cert.KernelIdeal.Tail.tail_value W]
  funext _
  unfold Cert.Mmd.kernelOut
  rw [h0, h1, h2, h3, funext h4, funext h5]

variable (m : (ℓ : Loc nD τ sig) → Buf (Elt Ideal) ℓ) (ρ : Dev nD → PrngReg)

theorem exit_arr (c : Dev nD) (w : Fin 5) :
    Pipeline.withArrays spec0 c (V0 m c) (fun w => (dats (F := Ideal) m 0 c).arrAt w cfg0.N) (Proc.devRef .tc (Pipeline.arrRef spec0 w))
      = (dats (F := Ideal) m 0 c).arrAt w cfg0.N :=
  Pipeline.withArrays_arr spec0 launch0.win.arr_inj c (V0 m c) (fun w => (dats (F := Ideal) m 0 c).arrAt w cfg0.N) w

theorem flat1 : ([hostOps1] : List (List (HloOp τ sig (Elt Ideal)))).flatten = hostOps1 := by
  simp only [List.flatten_cons, List.flatten_nil, List.append_nil]

theorem tail_eq (c : Dev nD) :
    Pipeline.afterTail₀ cfgs (dats (F := Ideal) m) 0 (V0 m) [hostOps1] c main_v50
      = fun _ => Cert.Mmd.kernelOut (matA m c) (matB m c) := by
  unfold Pipeline.afterTail₀
  rw [flat1]
  exact tail_at _ (matA m c) (matB m c)
    ((congrFun (exit_arr m c 2) _).trans (stats_mx m c))
    ((congrFun (exit_arr m c 2) _).trans (stats_mn m c))
    ((congrFun (exit_arr m c 2) _).trans (stats_qs m c))
    ((congrFun (exit_arr m c 2) _).trans (stats_qt m c))
    (fun d => (congrFun (exit_arr m c 3) _).trans (cs_final m c d))
    (fun d => (congrFun (exit_arr m c 4) _).trans (ct_final m c d))

theorem v50_rest : main_v50 ∈ Pipeline.restRefs sig spec0 :=
  Pipeline.mem_restRefs_of main_v50 rfl (by decide)

/-- The idealized kernel's run ends at `kernelOut` of its two inputs, which it leaves unchanged. -/
theorem run_value :
    θ_run (defs (F := Ideal)) (onTc (τ := τ) (main (F := Ideal))) ⟨m, fun _ => 0, ρ⟩ (fun r => ∀ c : Dev nD,
      r.2.mem ((c.tc : Thread nD τ).loc main_v50) = (fun _ => Cert.Mmd.kernelOut (matA m c) (matB m c))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  have hr := run_main (F := Ideal) m ρ
  refine (θ_run defs _ _).mono (fun r h c => ?_) hr
  have hc := h c
  refine ⟨(hc.2 main_v50 v50_rest).trans (tail_eq m c), ?_, ?_⟩
  · exact (hc.1 0).trans (((dats (F := Ideal) m 0 c).arrAt_in 0 rfl _).trans ((A_eq (F := Ideal) m c 0).trans (V_main_arg0 m c)))
  · exact (hc.1 1).trans (((dats (F := Ideal) m 0 c).arrAt_in 1 rfl _).trans ((A_eq (F := Ideal) m c 1).trans (V_main_arg1 m c)))

end Cert.KernelIdeal.HandValue

end
-- ==== Proof.RefStageExt.lean ====
import proofs.«167831_j66408784331046_1_alg».proof.Proof.Gen.ReferenceIdeal
import proofs.«167831_j66408784331046_1_alg».proof.Proof.AsMat
import proofs.«167831_j66408784331046_1_alg».proof.Proof.Spec
import proofs.«167831_j66408784331046_1_alg».proof.Proof.Consts
import Idealize.ShloMosaic.PureOps.Reduce
import Idealize.ShloMosaic.PureOps.Ideal.Laws
import Idealize.ShloMosaic.Lib.ValueIdx
import Mathlib.Order.CompleteLattice.Finset
import Mathlib.Data.Finset.Fold

noncomputable section

namespace Cert.ReferenceIdeal.RefValue

open Cert.ReferenceIdeal Cert.ReferenceIdeal.Gen Idealize.ShloMosaic Idealize.ShloMosaic.ValueIdx

theorem fold_max_bot_eq_sup {ι : Type} (s : Finset ι) (f : ι → EReal) : s.fold max ⊥ f = s.sup f := by
  induction s using Finset.cons_induction with
  | empty => rw [Finset.fold_empty, Finset.sup_empty]
  | cons a s ha ih => rw [Finset.fold_cons, Finset.sup_cons, ih]

theorem fold_min_top_eq_inf {ι : Type} (s : Finset ι) (f : ι → EReal) : s.fold min ⊤ f = s.inf f := by
  induction s using Finset.cons_induction with
  | empty => rw [Finset.fold_empty, Finset.inf_empty]
  | cons a s ha ih => rw [Finset.fold_cons, Finset.inf_cons, ih]

theorem sup_idx2 {n0 n1 : Nat} (f : (⟨2, ![n0, n1]⟩ : Shape).Idx → EReal) :
    Finset.univ.sup f = Finset.univ.sup fun i : Fin n0 => Finset.univ.sup fun d : Fin n1 => f (ix2 i d) := by
  simp only [Finset.sup_univ_eq_iSup]
  rw [← Equiv.iSup_comp (idxEquiv2 (n0 := n0) (n1 := n1)).symm, iSup_prod]
  rfl

theorem inf_idx2 {n0 n1 : Nat} (f : (⟨2, ![n0, n1]⟩ : Shape).Idx → EReal) :
    Finset.univ.inf f = Finset.univ.inf fun i : Fin n0 => Finset.univ.inf fun d : Fin n1 => f (ix2 i d) := by
  simp only [Finset.inf_univ_eq_iInf]
  rw [← Equiv.iInf_comp (idxEquiv2 (n0 := n0) (n1 := n1)).symm, iInf_prod]
  rfl

theorem filter_drop_eq_univ (h : S4096x256.ReducesTo [0, 1] S_) (j : S_.Idx) :
    (Finset.univ.filter fun i : S4096x256.Idx => h.drop i = j) = Finset.univ :=
  Finset.filter_true_of_mem fun i _ => funext fun a => Fin.elim0 a

theorem reduce_max_eq (x : FVec Ideal S4096x256 .f32) :
    Host.reduce FloatOps.maximumf x (constant S_ .f32 0xFF800000#32) reducesTo_S4096x256_S_d0_1 h_S_
      = fun _ => Cert.Mmd.mx (Cert.Mmd.asMat x) := by
  funext j
  rw [Host.reduce_eq_fold, filter_drop_eq_univ]
  show Finset.univ.fold max (Ideal.ofBits .f32 0xFF800000#32) x = _
  rw [Cert.Mmd.Consts.ofBits_ninf, fold_max_bot_eq_sup, sup_idx2]
  rfl

theorem reduce_min_eq (x : FVec Ideal S4096x256 .f32) :
    Host.reduce FloatOps.minimumf x (constant S_ .f32 0x7F800000#32) reducesTo_S4096x256_S_d0_1 h_S_
      = fun _ => Cert.Mmd.mn (Cert.Mmd.asMat x) := by
  funext j
  rw [Host.reduce_eq_fold, filter_drop_eq_univ]
  show Finset.univ.fold min (Ideal.ofBits .f32 0x7F800000#32) x = _
  rw [Cert.Mmd.Consts.ofBits_pinf, fold_min_top_eq_inf, inf_idx2]
  rfl

end Cert.ReferenceIdeal.RefValue

end
-- ==== Proof.RefStageSum.lean ====
import proofs.«167831_j66408784331046_1_alg».proof.Proof.Gen.ReferenceIdeal
import Idealize.ShloMosaic.Lib.ValueIdx
import Idealize.ShloMosaic.Lib.IdealHost
import Idealize.ShloMosaic.Lib.StackMember
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.ValueIdx

theorem dot_eq_plain :
    (dot_S8192x256_S256x8192_S8192x8192_1_0_0_1_n_n : DotDims S8192x256 S256x8192 S8192x8192)
      = DotDims.plain 8192 256 8192 := rfl

theorem transpose_rows_apply (T : FVec Ideal S8192x256 .f32) (d : Fin 256) (l : Fin 8192) :
    transpose S256x8192 [1, 0] T transposes_S8192x256_S256x8192_1_0 (ix2 d l) = T (ix2 l d) :=
  transpose_apply [1, 0] T transposes_S8192x256_S256x8192_1_0 (ix2 d l) (ix2 l d)
    (fun b => match b with | ⟨0, _⟩ => rfl | ⟨1, _⟩ => rfl)

theorem dot_eq (T : FVec Ideal S8192x256 .f32) (k l : Fin 8192) :
    Host.dotGeneral dot_S8192x256_S256x8192_S8192x8192_1_0_0_1_n_n none T
        (transpose S256x8192 [1, 0] T transposes_S8192x256_S256x8192_1_0) (ix2 k l)
      = 0 + ∑ d : Fin 256, T (ix2 k d) * T (ix2 l d) := by
  rw [dot_eq_plain, StackMember.dotGeneral_plain_apply, zero_add]
  exact Finset.sum_congr rfl (fun d _ => by rw [transpose_rows_apply])

theorem reduces_rows : S8192x256.Reduces [1] S8192 := by decide

theorem lift_rows (k : Fin 8192) (d : Fin 256) : reduces_rows.lift (ix1 k) d = ix2 k d := by
  funext c
  match c with
  | ⟨0, _⟩ => exact Fin.ext rfl
  | ⟨1, _⟩ => exact Fin.ext rfl

theorem reduceAdd_rows (X : FVec Ideal S8192x256 .f32) (k : Fin 8192) :
    Host.reduceAdd X (constant S_ .f32 0x00000000#32) reducesTo_S8192x256_S8192_d1 h_S_ (ix1 k)
      = 0 + ∑ d : Fin 256, X (ix2 k d) := by
  rw [hostReduceAdd_apply, Ideal.hostReduceAdd_single reducesTo_S8192x256_S8192_d1 reduces_rows, constant_apply,
    Ideal.ofBits_zero_f32]
  exact congrArg (0 + ·) (Finset.sum_congr rfl (fun d _ => congrArg X (lift_rows k d)))

theorem reduceAdd_all_8192 (X : FVec Ideal S8192x8192 .f32) :
    Host.reduceAdd X (constant S_ .f32 0x00000000#32) reducesTo_S8192x8192_S_d0_1 h_S_
      = fun _ => 0 + ∑ k : Fin 8192, ∑ l : Fin 8192, X (ix2 k l) := by
  funext j
  rw [hostReduceAdd_apply, Ideal.hostReduceAdd_total reducesTo_S8192x8192_S_d0_1 (fun b => b.elim0), constant_apply,
    Ideal.ofBits_zero_f32, sum_idx2]

theorem reduceAdd_all_4096 (X : FVec Ideal S4096x4096 .f32) :
    Host.reduceAdd X (constant S_ .f32 0x00000000#32) reducesTo_S4096x4096_S_d0_1 h_S_
      = fun _ => 0 + ∑ i : Fin 4096, ∑ j : Fin 4096, X (ix2 i j) := by
  funext j
  rw [hostReduceAdd_apply, Ideal.hostReduceAdd_total reducesTo_S4096x4096_S_d0_1 (fun b => b.elim0), constant_apply,
    Ideal.ofBits_zero_f32, sum_idx2]

end Cert.ReferenceIdeal.RefValue

end
-- ==== Proof.RefStageLayout.lean ====
import proofs.«167831_j66408784331046_1_alg».proof.Proof.Gen.ReferenceIdeal
import proofs.«167831_j66408784331046_1_alg».proof.Proof.AsMat
import proofs.«167831_j66408784331046_1_alg».proof.Proof.Spec
import Idealize.ShloMosaic.Lib.ValueIdx
import Idealize.ShloMosaic.Lib.ValueLayout

noncomputable section

namespace Cert.ReferenceIdeal.RefValue

open Cert.ReferenceIdeal Cert.ReferenceIdeal.Gen Idealize.ShloMosaic Idealize.ShloMosaic.ValueIdx

theorem concat_apply (a b : FVec Ideal S4096x256 .f32) (k : Fin 8192) (d : Fin 256) :
    concatenate S8192x256 0 [⟨S4096x256, a⟩, ⟨S4096x256, b⟩] concatenates_S4096x256_S4096x256_S8192x256_d0 (ix2 k d)
      = if h : k.val < 4096 then a (ix2 ⟨k.val, h⟩ d) else b (ix2 ⟨k.val - 4096, by omega⟩ d) := by
  by_cases h : k.val < 4096
  · rw [dif_pos h]
    refine concatenate_pair_apply_left (0 : Fin S8192x256.rank) a b _ (ix2 k d) rfl (ix2 ⟨k.val, h⟩ d) fun ax => ?_
    match ax with
    | ⟨0, _⟩ => rfl
    | ⟨1, _⟩ => rfl
  · rw [dif_neg h]
    refine concatenate_pair_apply_right (0 : Fin S8192x256.rank) a b _ (ix2 k d) rfl rfl
      (ix2 ⟨k.val - 4096, by omega⟩ d) (fun ax hne => ?_) ?_
    · match ax with
      | ⟨0, _⟩ => exact absurd rfl hne
      | ⟨1, _⟩ => rfl
    · show k.val - 4096 + 4096 = k.val
      omega

theorem slice_lo_lo (X : FVec Ideal S8192x8192 .f32) (i j : Fin 4096) :
    extractStridedSlice S4096x4096 ![0, 0] X slices_S8192x8192_S4096x4096_0_0 (ix2 i j)
      = X (ix2 (Cert.Mmd.lo i) (Cert.Mmd.lo j)) :=
  extractStridedSlice_apply _ _ _ _ _ (fun ax => by
    match ax with
    | ⟨0, _⟩ => exact (Nat.zero_add _).symm
    | ⟨1, _⟩ => exact (Nat.zero_add _).symm)

theorem slice_hi_hi (X : FVec Ideal S8192x8192 .f32) (i j : Fin 4096) :
    extractStridedSlice S4096x4096 ![4096, 4096] X slices_S8192x8192_S4096x4096_4096_4096 (ix2 i j)
      = X (ix2 (Cert.Mmd.hi i) (Cert.Mmd.hi j)) :=
  extractStridedSlice_apply _ _ _ _ _ (fun ax => by
    match ax with
    | ⟨0, _⟩ => rfl
    | ⟨1, _⟩ => rfl)

theorem slice_lo_hi (X : FVec Ideal S8192x8192 .f32) (i j : Fin 4096) :
    extractStridedSlice S4096x4096 ![0, 4096] X slices_S8192x8192_S4096x4096_0_4096 (ix2 i j)
      = X (ix2 (Cert.Mmd.lo i) (Cert.Mmd.hi j)) :=
  extractStridedSlice_apply _ _ _ _ _ (fun ax => by
    match ax with
    | ⟨0, _⟩ => exact (Nat.zero_add _).symm
    | ⟨1, _⟩ => rfl)

theorem slice_hi_lo (X : FVec Ideal S8192x8192 .f32) (i j : Fin 4096) :
    extractStridedSlice S4096x4096 ![4096, 0] X slices_S8192x8192_S4096x4096_4096_0 (ix2 i j)
      = X (ix2 (Cert.Mmd.hi i) (Cert.Mmd.lo j)) :=
  extractStridedSlice_apply _ _ _ _ _ (fun ax => by
    match ax with
    | ⟨0, _⟩ => rfl
    | ⟨1, _⟩ => exact (Nat.zero_add _).symm)

theorem bcast_scalar_apply {t : Shape} (h : S_.BroadcastsInDim t (![] : Fin S_.rank → Fin t.rank))
    (x : FVec Ideal S_ .f32) (j : t.Idx) : broadcastInDim t ![] h x j = x ix0 :=
  broadcastInDim_apply _ h x j ix0 (fun a => a.elim0)

theorem bcast_scalar_apply_S4096x256 (x : FVec Ideal S_ .f32) (j : S4096x256.Idx) :
    broadcastInDim S4096x256 ![] bcast_S_S4096x256 x j = x ix0 :=
  bcast_scalar_apply _ x j

theorem bcast_scalar_apply_S8192x8192 (x : FVec Ideal S_ .f32) (j : S8192x8192.Idx) :
    broadcastInDim S8192x8192 ![] bcast_S_S8192x8192 x j = x ix0 :=
  bcast_scalar_apply _ x j

theorem bcast_rows_apply (v : FVec Ideal S8192 .f32) (k l : Fin 8192) :
    broadcastInDim S8192x8192 ![0, 1] bcast_S8192x1_S8192x8192_0_1
        (broadcastInDim S8192x1 ![0] bcast_S8192_S8192x1_0 v) (ix2 k l) = v (ix1 k) := by
  refine (broadcastInDim_apply _ _ _ (ix2 k l) (ix2 k (0 : Fin 1)) fun ax => ?_).trans
    (broadcastInDim_apply _ _ v (ix2 k (0 : Fin 1)) (ix1 k) fun ax => ?_)
  · match ax with
    | ⟨0, _⟩ => rfl
    | ⟨1, _⟩ => rfl
  · match ax with
    | ⟨0, _⟩ => rfl

theorem bcast_cols_apply (v : FVec Ideal S8192 .f32) (k l : Fin 8192) :
    broadcastInDim S8192x8192 ![0, 1] bcast_S1x8192_S8192x8192_0_1
        (broadcastInDim S1x8192 ![1] bcast_S8192_S1x8192_1 v) (ix2 k l) = v (ix1 l) := by
  refine (broadcastInDim_apply _ _ _ (ix2 k l) (ix2 (0 : Fin 1) l) fun ax => ?_).trans
    (broadcastInDim_apply _ _ v (ix2 (0 : Fin 1) l) (ix1 l) fun ax => ?_)
  · match ax with
    | ⟨0, _⟩ => rfl
    | ⟨1, _⟩ => rfl
  · match ax with
    | ⟨0, _⟩ => rfl

end Cert.ReferenceIdeal.RefValue

end
-- ==== Proof.RefValue.lean ====
import proofs.«167831_j66408784331046_1_alg».proof.Proof.RefRun
import proofs.«167831_j66408784331046_1_alg».proof.Proof.AsMat
import proofs.«167831_j66408784331046_1_alg».proof.Proof.Consts
import proofs.«167831_j66408784331046_1_alg».proof.Proof.RefStageExt
import proofs.«167831_j66408784331046_1_alg».proof.Proof.RefStageSum
import proofs.«167831_j66408784331046_1_alg».proof.Proof.RefStageLayout
import Idealize.ShloMosaic.Lib.IdealHost
import Idealize.ShloMosaic.Lib.ValueIdx

noncomputable section

namespace Cert.ReferenceIdeal.RefValue
open Cert.ReferenceIdeal Cert.ReferenceIdeal.Gen Cert.ReferenceIdeal.ValueP Idealize.ShloMosaic Idealize.ShloMosaic.ValueIdx Idealize.SL.Sem
open Cert.Mmd

variable (V0 : Valuation τ sig (Elt Ideal))

abbrev argA : Mat := asMat (V0 (Proc.devRef .tc main_arg0))

abbrev argB : Mat := asMat (V0 (Proc.devRef .tc main_arg1))

abbrev scale : EReal := mx (argA V0) - mn (argA V0)

theorem hostNegf_apply {s : Shape} {φ : FTy} (a : FVec Ideal s φ) (i : s.Idx) : Host.negf a i = -(a i) := rfl

theorem v2_eq : res_main_v2 (F := Ideal) V0 = fun _ => scale V0 := by
  unfold res_main_v2
  rw [reduce_max_eq, reduce_min_eq]
  rfl

theorem div_scale_apply (X : FVec Ideal S4096x256 .f32) (i : S4096x256.Idx) :
    Host.divf X (broadcastInDim S4096x256 ![] bcast_S_S4096x256 (res_main_v2 (F := Ideal) V0)) i = Ideal.div (X i) (scale V0) := by
  rw [hostDivf_apply, broadcastInDim_scalar_apply, v2_eq]

theorem v7_apply (k : Fin 8192) (d : Fin 256) :
    res_main_v7 (F := Ideal) V0 (ix2 k d) = tot (scale V0) (argA V0) (argB V0) k d := by
  unfold res_main_v7
  rw [concat_apply]
  unfold tot
  by_cases h : k.val < 4096
  · rw [dif_pos h, dif_pos h, div_scale_apply]; rfl
  · rw [dif_neg h, dif_neg h, div_scale_apply]; rfl

theorem v9_apply (k : Fin 8192) :
    res_main_v9 (F := Ideal) V0 (ix1 k) = rSq (scale V0) (argA V0) (argB V0) k := by
  unfold res_main_v9
  rw [reduceAdd_rows]
  unfold rSq
  simp only [mulf_apply, v7_apply]

theorem v21_apply (k l : Fin 8192) :
    res_main_v21 (F := Ideal) V0 (ix2 k l) = rL2 (scale V0) (argA V0) (argB V0) k l := by
  unfold res_main_v21
  rw [hostDivf_apply, subf_apply, addf_apply, mulf_apply, bcast_rows_apply, bcast_cols_apply, dot_eq,
    broadcastInDim_scalar_apply, broadcastInDim_scalar_apply, constant_apply, constant_apply,
    v9_apply, v9_apply, Consts.ofBits_two, Consts.ofBits_256]
  unfold rL2 rGram
  simp only [v7_apply]

theorem v24_eq : res_main_v24 (F := Ideal) V0 = fun _ => rBw (scale V0) (argA V0) (argB V0) := by
  unfold res_main_v24
  rw [reduceAdd_all_8192]
  funext j
  rw [hostDivf_apply, hostDivf_apply, constant_apply, constant_apply, Consts.ofBits_67100672, Consts.ofBits_four]
  unfold rBw
  simp only [v21_apply]

theorem v42_apply (k l : Fin 8192) :
    res_main_v42 (F := Ideal) V0 (ix2 k l) = rK (scale V0) (argA V0) (argB V0) k l := by
  unfold res_main_v42
  rw [mulf_apply, broadcastInDim_scalar_apply, hostNegf_apply, v21_apply, v24_eq]
  simp only [addf_apply, hostDivf_apply, mulf_apply, constant_apply, Consts.ofBits_zero, Consts.ofBits_one,
    Consts.ofBits_two, Consts.ofBits_four, Consts.ofBits_eight, Consts.ofBits_sixteen]
  rfl

/-- The reference's host operations, read stage by stage at an index, compose to `refOut` of the two inputs. -/
theorem result_eq :
    (Host.divf (Host.reduceAdd (subf (subf (addf (extractStridedSlice S4096x4096 ![0, 0] (res_main_v42 (F := Ideal) V0) slices_S8192x8192_S4096x4096_0_0) (extractStridedSlice S4096x4096 ![4096, 4096] (res_main_v42 (F := Ideal) V0) slices_S8192x8192_S4096x4096_4096_4096)) (extractStridedSlice S4096x4096 ![0, 4096] (res_main_v42 (F := Ideal) V0) slices_S8192x8192_S4096x4096_0_4096)) (extractStridedSlice S4096x4096 ![4096, 0] (res_main_v42 (F := Ideal) V0) slices_S8192x8192_S4096x4096_4096_0)) (constant S_ .f32 0x00000000#32) reducesTo_S4096x4096_S_d0_1 h_S_) (constant S_ .f32 0x4B800000#32) : FVec Ideal S_ .f32)
      = fun _ => Cert.Mmd.refOut (Cert.Mmd.asMat (V0 (Proc.devRef .tc main_arg0))) (Cert.Mmd.asMat (V0 (Proc.devRef .tc main_arg1))) := by
  rw [reduceAdd_all_4096]
  funext j
  rw [hostDivf_apply, constant_apply, Consts.ofBits_16777216]
  simp only [subf_apply, addf_apply, slice_lo_lo, slice_hi_hi, slice_lo_hi, slice_hi_lo, v42_apply]
  rfl

end Cert.ReferenceIdeal.RefValue

end
-- ==== Proof.Finite.lean ====
import proofs.«167831_j66408784331046_1_alg».proof.Pre_finite_inputs
import Idealize.ShloMosaic.Lib.ReduceAll
import Idealize.ShloMosaic.Lib.ValueIdx

noncomputable section

namespace Cert.Mmd

open Idealize.ShloMosaic

instance : Subsingleton Cert.Pre_finite_inputs.S_.Idx := ⟨fun a b => funext fun d => d.elim0⟩

theorem real_of_abs_lt_top (a : EReal) (h : max a (-a) < ⊤) : ∃ r : ℝ, a = (r : EReal) := by
  induction a using EReal.rec with
  | bot => simp at h
  | coe r => exact ⟨r, rfl⟩
  | top => simp at h

theorem real_of_cmp_abs_inf (a : EReal)
    (e : Ideal.cmp .olt (max a (-a)) (Ideal.ofBits .f32 0x7F800000#32) = 1#1) : ∃ r : ℝ, a = (r : EReal) := by
  have htop : Ideal.ofBits .f32 0x7F800000#32 = ⊤ := by simp [Ideal.ofBits, Ideal.ieee]
  rw [htop] at e
  simp only [Ideal.cmp] at e
  refine real_of_abs_lt_top a ?_
  by_contra hn
  rw [decide_eq_false hn] at e
  exact absurd e (by decide)

/-- The precondition bounds every entry's absolute value below `+∞`: every entry is a real number. -/
theorem finite_of_pre [Cert.Pre_finite_inputs.Facts] (x y : FVec Ideal Cert.Pre_finite_inputs.S4096x256 .f32)
    (h : Cert.Pre_finite_inputs.fn (F := Ideal) x y = fun _ => 1#1) :
    (∀ i, ∃ r : ℝ, x i = (r : EReal)) ∧ (∀ i, ∃ r : ℝ, y i = (r : EReal)) := by
  have h0 := congrFun h ValueIdx.ix0
  dsimp only [Cert.Pre_finite_inputs.fn] at h0
  obtain ⟨hx, hy⟩ := IntOp.andi_eq_one.1 h0
  exact ⟨fun i => real_of_cmp_abs_inf (x i) (Host.reduce_andi_all _ _ _ _ _ hx i),
    fun i => real_of_cmp_abs_inf (y i) (Host.reduce_andi_all _ _ _ _ _ hy i)⟩

end Cert.Mmd

end
-- ==== Proof.SpecReal.lean ====
import proofs.«167831_j66408784331046_1_alg».proof.Proof.Spec

noncomputable section

namespace Cert.Mmd

abbrev RMat := Fin 4096 → Fin 256 → ℝ

def up (a : RMat) : Mat := fun i d => ((a i d : ℝ) : EReal)

def ssq (a : RMat) : ℝ := ∑ i, ∑ d, a i d * a i d

def csum (a : RMat) (d : Fin 256) : ℝ := ∑ i, a i d

def invBwR (bw : ℝ) : ℝ := 1 / (bw * 1) + 1 / (bw * 2) + 1 / (bw * 4) + 1 / (bw * 8) + 1 / (bw * 16)

def kBwR (σ qs qt : ℝ) (cs ct : Fin 256 → ℝ) : ℝ :=
  (((16384 * (qs / (σ * σ) + qt / (σ * σ)) - 2 * ∑ d, (cs d / σ + ct d / σ) * (cs d / σ + ct d / σ)) / 256) / 67100672) / 4

def kDiffR (σ : ℝ) (cs ct : Fin 256 → ℝ) : ℝ := ∑ d, (cs d / σ - ct d / σ) * (cs d / σ - ct d / σ)

def totR (σ : ℝ) (a b : RMat) (k : Fin 8192) (d : Fin 256) : ℝ :=
  if h : k.val < 4096 then a ⟨k.val, h⟩ d / σ else b ⟨k.val - 4096, by omega⟩ d / σ

def sqR (σ : ℝ) (a b : RMat) (k : Fin 8192) : ℝ := ∑ d, totR σ a b k d * totR σ a b k d
def gramR (σ : ℝ) (a b : RMat) (k l : Fin 8192) : ℝ := ∑ d, totR σ a b k d * totR σ a b l d
def l2R (σ : ℝ) (a b : RMat) (k l : Fin 8192) : ℝ := ((sqR σ a b k + sqR σ a b l) - 2 * gramR σ a b k l) / 256

def bwR (σ : ℝ) (a b : RMat) : ℝ := ((∑ k, ∑ l, l2R σ a b k l) / 67100672) / 4

end Cert.Mmd

end
-- ==== Proof.MathCoe.lean ====
import proofs.«167831_j66408784331046_1_alg».proof.Proof.SpecReal

noncomputable section

namespace Cert.Mmd

open Idealize.ShloMosaic

/-- At real arguments each quantity is the coercion of its real counterpart. -/
theorem div_coe_coe (x y : ℝ) (hy : y ≠ 0) : Ideal.div ((x : ℝ) : EReal) ((y : ℝ) : EReal) = ((x / y : ℝ) : EReal) := by
  have hy' : ((y : ℝ) : EReal) ≠ 0 := by exact_mod_cast hy
  rw [Ideal.div, if_neg hy', ← EReal.coe_inv, ← EReal.coe_mul, div_eq_mul_inv]

theorem coe_sum {ι : Type} (s : Finset ι) (f : ι → ℝ) : ((∑ i ∈ s, f i : ℝ) : EReal) = ∑ i ∈ s, ((f i : ℝ) : EReal) := by
  classical
  induction s using Finset.induction_on with
  | empty => simp
  | insert i s hi ih => rw [Finset.sum_insert hi, Finset.sum_insert hi, EReal.coe_add, ih]

theorem mx_up (a : RMat) : ∃ M : ℝ, mx (up a) = ((M : ℝ) : EReal) ∧ (∀ i d, a i d ≤ M) ∧ ∃ i d, a i d = M := by
  obtain ⟨i, -, hi⟩ := Finset.exists_mem_eq_sup (Finset.univ : Finset (Fin 4096)) ⟨⟨0, by omega⟩, Finset.mem_univ _⟩
    (fun i => Finset.univ.sup fun d => up a i d)
  obtain ⟨d, -, hd⟩ := Finset.exists_mem_eq_sup (Finset.univ : Finset (Fin 256)) ⟨⟨0, by omega⟩, Finset.mem_univ _⟩
    (fun d => up a i d)
  have hM : mx (up a) = ((a i d : ℝ) : EReal) := by
    unfold mx
    rw [hi, hd]
    rfl
  refine ⟨a i d, hM, fun i' d' => ?_, i, d, rfl⟩
  have h1 : up a i' d' ≤ Finset.univ.sup fun d => up a i' d :=
    Finset.le_sup (f := fun d => up a i' d) (Finset.mem_univ d')
  have h2 : (Finset.univ.sup fun d => up a i' d) ≤ mx (up a) :=
    Finset.le_sup (f := fun i => Finset.univ.sup fun d => up a i d) (Finset.mem_univ i')
  have h3 : up a i' d' ≤ ((a i d : ℝ) : EReal) := hM ▸ h1.trans h2
  exact EReal.coe_le_coe_iff.1 h3

theorem mn_up (a : RMat) : ∃ N : ℝ, mn (up a) = ((N : ℝ) : EReal) ∧ (∀ i d, N ≤ a i d) ∧ ∃ i d, a i d = N := by
  obtain ⟨i, -, hi⟩ := Finset.exists_mem_eq_inf (Finset.univ : Finset (Fin 4096)) ⟨⟨0, by omega⟩, Finset.mem_univ _⟩
    (fun i => Finset.univ.inf fun d => up a i d)
  obtain ⟨d, -, hd⟩ := Finset.exists_mem_eq_inf (Finset.univ : Finset (Fin 256)) ⟨⟨0, by omega⟩, Finset.mem_univ _⟩
    (fun d => up a i d)
  have hN : mn (up a) = ((a i d : ℝ) : EReal) := by
    unfold mn
    rw [hi, hd]
    rfl
  refine ⟨a i d, hN, fun i' d' => ?_, i, d, rfl⟩
  have h1 : (Finset.univ.inf fun d => up a i' d) ≤ up a i' d' :=
    Finset.inf_le (f := fun d => up a i' d) (Finset.mem_univ d')
  have h2 : mn (up a) ≤ Finset.univ.inf fun d => up a i' d :=
    Finset.inf_le (f := fun i => Finset.univ.inf fun d => up a i d) (Finset.mem_univ i')
  have h3 : ((a i d : ℝ) : EReal) ≤ up a i' d' := hN ▸ h2.trans h1
  exact EReal.coe_le_coe_iff.1 h3

theorem sumsq_up (a : RMat) : sumsq (up a) = ((ssq a : ℝ) : EReal) := by
  unfold sumsq ssq
  rw [coe_sum]
  refine Finset.sum_congr rfl fun i _ => ?_
  rw [coe_sum]
  refine Finset.sum_congr rfl fun d _ => ?_
  rw [EReal.coe_mul]
  rfl

theorem colsum_up (a : RMat) (d : Fin 256) : colsum (up a) d = ((csum a d : ℝ) : EReal) := by
  unfold colsum csum
  rw [coe_sum]
  rfl

theorem invBw_coe (bw : ℝ) (h : bw ≠ 0) : invBw ((bw : ℝ) : EReal) = ((invBwR bw : ℝ) : EReal) := by
  have term : ∀ c : ℝ, c ≠ 0 →
      Ideal.div ((1 : ℝ) : EReal) (((bw : ℝ) : EReal) * ((c : ℝ) : EReal)) = ((1 / (bw * c) : ℝ) : EReal) := by
    intro c hc
    rw [← EReal.coe_mul, div_coe_coe 1 (bw * c) (mul_ne_zero h hc)]
  unfold invBw invBwR
  rw [term 1 (by norm_num), term 2 (by norm_num), term 4 (by norm_num), term 8 (by norm_num),
    term 16 (by norm_num), zero_add, ← EReal.coe_add, ← EReal.coe_add, ← EReal.coe_add, ← EReal.coe_add]

theorem invBw_zero : invBw 0 = ⊤ := by
  have term : ∀ c : EReal, Ideal.div ((1 : ℝ) : EReal) (0 * c) = ⊤ := by
    intro c
    have h1 : (0 : EReal) < ((1 : ℝ) : EReal) := by exact_mod_cast one_pos
    rw [zero_mul, Ideal.div, if_pos rfl, if_pos h1]
  unfold invBw
  rw [term, term, term, term, term, zero_add, EReal.top_add_top, EReal.top_add_top, EReal.top_add_top,
    EReal.top_add_top]

theorem invBw_bot : invBw ⊥ = 0 := by
  have term : ∀ c : ℝ, 0 < c → Ideal.div ((1 : ℝ) : EReal) (⊥ * ((c : ℝ) : EReal)) = 0 := by
    intro c hc
    rw [EReal.bot_mul_coe_of_pos hc, Ideal.div, if_neg EReal.bot_ne_zero, EReal.inv_bot, mul_zero]
  unfold invBw
  rw [term 1 (by norm_num), term 2 (by norm_num), term 4 (by norm_num), term 8 (by norm_num),
    term 16 (by norm_num)]
  simp

end Cert.Mmd

end
-- ==== Proof.MathCoe2.lean ====
import proofs.«167831_j66408784331046_1_alg».proof.Proof.MathCoe

noncomputable section

namespace Cert.Mmd

open Idealize.ShloMosaic

theorem kBw_coe (σ qs qt : ℝ) (cs ct : Fin 256 → ℝ) (hσ : σ ≠ 0) :
    kBw ((σ : ℝ) : EReal) ((qs : ℝ) : EReal) ((qt : ℝ) : EReal) (fun d => ((cs d : ℝ) : EReal)) (fun d => ((ct d : ℝ) : EReal))
      = ((kBwR σ qs qt cs ct : ℝ) : EReal) := by
  have hσσ : σ * σ ≠ 0 := mul_ne_zero hσ hσ
  have h256 : (256 : ℝ) ≠ 0 := by norm_num
  have h67 : (67100672 : ℝ) ≠ 0 := by norm_num
  have h4 : (4 : ℝ) ≠ 0 := by norm_num
  unfold kBw kQ kCdot kS kBwR
  simp only [zero_add, ← EReal.coe_mul, ← EReal.coe_add, ← EReal.coe_sub, ← coe_sum,
    div_coe_coe _ _ hσ, div_coe_coe _ _ hσσ, div_coe_coe _ _ h256, div_coe_coe _ _ h67, div_coe_coe _ _ h4]

theorem kDiff_coe (σ : ℝ) (cs ct : Fin 256 → ℝ) (hσ : σ ≠ 0) :
    kDiff ((σ : ℝ) : EReal) (fun d => ((cs d : ℝ) : EReal)) (fun d => ((ct d : ℝ) : EReal)) = ((kDiffR σ cs ct : ℝ) : EReal) := by
  unfold kDiff kS kDiffR
  simp only [zero_add, ← EReal.coe_mul, ← EReal.coe_sub, ← coe_sum, div_coe_coe _ _ hσ]

theorem tot_coe (σ : ℝ) (a b : RMat) (hσ : σ ≠ 0) (k : Fin 8192) (d : Fin 256) :
    tot ((σ : ℝ) : EReal) (up a) (up b) k d = ((totR σ a b k d : ℝ) : EReal) := by
  unfold tot totR
  by_cases h : k.val < 4096
  · rw [dif_pos h, dif_pos h]
    exact div_coe_coe _ _ hσ
  · rw [dif_neg h, dif_neg h]
    exact div_coe_coe _ _ hσ

theorem rL2_coe (σ : ℝ) (a b : RMat) (hσ : σ ≠ 0) (k l : Fin 8192) :
    rL2 ((σ : ℝ) : EReal) (up a) (up b) k l = ((l2R σ a b k l : ℝ) : EReal) := by
  have h256 : (256 : ℝ) ≠ 0 := by norm_num
  unfold rL2 rSq rGram l2R sqR gramR
  simp only [tot_coe σ a b hσ, zero_add, ← EReal.coe_mul, ← EReal.coe_add, ← EReal.coe_sub, ← coe_sum,
    div_coe_coe _ _ h256]

theorem rBw_coe (σ : ℝ) (a b : RMat) (hσ : σ ≠ 0) :
    rBw ((σ : ℝ) : EReal) (up a) (up b) = ((bwR σ a b : ℝ) : EReal) := by
  have h67 : (67100672 : ℝ) ≠ 0 := by norm_num
  have h4 : (4 : ℝ) ≠ 0 := by norm_num
  unfold rBw bwR
  simp only [rL2_coe σ a b hσ, zero_add, ← coe_sum, div_coe_coe _ _ h67, div_coe_coe _ _ h4]

end Cert.Mmd

end
-- ==== Proof.MathBw.lean ====
import proofs.«167831_j66408784331046_1_alg».proof.Proof.SpecReal
import Mathlib.Algebra.BigOperators.Fin
import Mathlib.Algebra.BigOperators.Ring.Finset
import Mathlib.Algebra.BigOperators.Field
import Mathlib.Tactic.Ring
import Mathlib.Tactic.NormNum

noncomputable section

namespace Cert.Mmd

theorem sum_stack (f : Fin 8192 → ℝ) : ∑ k, f k = ∑ i, f (lo i) + ∑ i, f (hi i) := by
  exact Fin.sum_univ_add (a := 4096) (b := 4096) (fun k : Fin (4096 + 4096) => f k)

theorem totR_lo (σ : ℝ) (a b : RMat) (i : Fin 4096) (d : Fin 256) : totR σ a b (lo i) d = a i d / σ := by
  have h : (lo i).val < 4096 := i.isLt
  unfold totR
  rw [dif_pos h]
  rfl

theorem totR_hi (σ : ℝ) (a b : RMat) (i : Fin 4096) (d : Fin 256) : totR σ a b (hi i) d = b i d / σ := by
  have h : ¬ (hi i).val < 4096 := by
    show ¬ (4096 + i.val < 4096)
    omega
  have e : ∀ p : (hi i).val - 4096 < 4096, (⟨(hi i).val - 4096, p⟩ : Fin 4096) = i := by
    intro p
    apply Fin.ext
    show 4096 + i.val - 4096 = i.val
    omega
  unfold totR
  rw [dif_neg h, e]

theorem sum_sqR (σ : ℝ) (a b : RMat) :
    ∑ k, sqR σ a b k = ssq a / (σ * σ) + ssq b / (σ * σ) := by
  rw [sum_stack]
  unfold sqR ssq
  simp only [totR_lo, totR_hi, div_mul_div_comm, ← Finset.sum_div]

theorem sum_totR (σ : ℝ) (a b : RMat) (d : Fin 256) :
    ∑ k, totR σ a b k d = csum a d / σ + csum b d / σ := by
  rw [sum_stack]
  unfold csum
  simp only [totR_lo, totR_hi, ← Finset.sum_div]

theorem sum_gramR (σ : ℝ) (a b : RMat) :
    ∑ k, ∑ l, gramR σ a b k l = ∑ d, (∑ k, totR σ a b k d) * (∑ k, totR σ a b k d) := by
  unfold gramR
  have h : ∀ k : Fin 8192, ∑ l : Fin 8192, ∑ d : Fin 256, totR σ a b k d * totR σ a b l d
      = ∑ d : Fin 256, ∑ l : Fin 8192, totR σ a b k d * totR σ a b l d := fun k => Finset.sum_comm
  simp only [h]
  rw [Finset.sum_comm]
  refine Finset.sum_congr rfl fun d _ => ?_
  rw [Finset.sum_mul_sum]

theorem sum_pairs (s : Fin 8192 → ℝ) (g : Fin 8192 → Fin 8192 → ℝ) :
    ∑ k, ∑ l, ((s k + s l) - 2 * g k l) / 256
      = (16384 * ∑ k, s k - 2 * ∑ k, ∑ l, g k l) / 256 := by
  have h1 : ∀ k : Fin 8192, ∑ l : Fin 8192, ((s k + s l) - 2 * g k l) / 256
      = ((8192 * s k + ∑ l, s l) - 2 * ∑ l, g k l) / 256 := by
    intro k
    rw [← Finset.sum_div, Finset.sum_sub_distrib, Finset.sum_add_distrib, ← Finset.mul_sum,
      Finset.sum_const, Finset.card_univ, Fintype.card_fin, nsmul_eq_mul]
    norm_num
  simp only [h1]
  rw [← Finset.sum_div, Finset.sum_sub_distrib, Finset.sum_add_distrib, ← Finset.mul_sum,
    ← Finset.mul_sum, Finset.sum_const, Finset.card_univ, Fintype.card_fin, nsmul_eq_mul]
  push_cast
  ring

/-- `Σ_{k,l} ‖x_k − x_l‖² = 2n Σ_k ‖x_k‖² − 2 ‖Σ_k x_k‖²`: the bandwidth from the six reductions is the bandwidth from all pairs. -/
theorem kBwR_eq_bwR (σ : ℝ) (a b : RMat) (hσ : σ ≠ 0) :
    kBwR σ (ssq a) (ssq b) (csum a) (csum b) = bwR σ a b := by
  unfold kBwR bwR l2R
  rw [sum_pairs, sum_sqR, sum_gramR]
  simp only [sum_totR]

end Cert.Mmd

end
-- ==== Proof.MathCross.lean ====
import proofs.«167831_j66408784331046_1_alg».proof.Proof.MathBw

noncomputable section

namespace Cert.Mmd

theorem l2R_eq (σ : ℝ) (a b : RMat) (k l : Fin 8192) :
    l2R σ a b k l = (∑ d, (totR σ a b k d - totR σ a b l d) * (totR σ a b k d - totR σ a b l d)) / 256 := by
  unfold l2R sqR gramR
  congr 1
  rw [← Finset.sum_add_distrib, Finset.mul_sum, ← Finset.sum_sub_distrib]
  exact Finset.sum_congr rfl (fun d _ => by ring)

theorem l2R_nonneg (σ : ℝ) (a b : RMat) (k l : Fin 8192) : 0 ≤ l2R σ a b k l := by
  rw [l2R_eq]
  exact div_nonneg (Finset.sum_nonneg (fun d _ => mul_self_nonneg _)) (by norm_num)

theorem cross_point (σ : ℝ) (a b : RMat) (i j : Fin 4096) :
    ((l2R σ a b (lo i) (lo j) + l2R σ a b (hi i) (hi j)) - l2R σ a b (lo i) (hi j)) - l2R σ a b (hi i) (lo j)
      = -(2 / 256) * ∑ d, (a i d / σ - b i d / σ) * (a j d / σ - b j d / σ) := by
  simp only [l2R_eq, totR_lo, totR_hi]
  rw [← add_div, ← sub_div, ← sub_div, ← Finset.sum_add_distrib, ← Finset.sum_sub_distrib,
    ← Finset.sum_sub_distrib, Finset.mul_sum, Finset.sum_div]
  exact Finset.sum_congr rfl (fun d _ => by ring)

theorem sum_sum_inner (u : Fin 4096 → Fin 256 → ℝ) :
    ∑ i, ∑ j, ∑ d, u i d * u j d = ∑ d, (∑ i, u i d) * (∑ i, u i d) :=
  calc ∑ i, ∑ j, ∑ d, u i d * u j d
      = ∑ i, ∑ d, ∑ j, u i d * u j d := Finset.sum_congr rfl (fun i _ => Finset.sum_comm)
    _ = ∑ d, ∑ i, ∑ j, u i d * u j d := Finset.sum_comm
    _ = ∑ d, (∑ i, u i d) * (∑ i, u i d) :=
        Finset.sum_congr rfl (fun d _ => (Finset.sum_mul_sum _ _ _ _).symm)

/-- The signed sum of squared distances over all source–target index pairs collapses to `−2 ‖Σ_i s_i − Σ_i t_i‖²` (over 256). -/
theorem cross_sum (σ : ℝ) (a b : RMat) :
    ∑ i, ∑ j, (((l2R σ a b (lo i) (lo j) + l2R σ a b (hi i) (hi j)) - l2R σ a b (lo i) (hi j)) - l2R σ a b (hi i) (lo j))
      = -(2 / 256) * kDiffR σ (csum a) (csum b) := by
  simp only [cross_point, ← Finset.mul_sum]
  congr 1
  rw [sum_sum_inner (fun i d => a i d / σ - b i d / σ)]
  unfold kDiffR csum
  refine Finset.sum_congr rfl (fun d _ => ?_)
  rw [Finset.sum_div, Finset.sum_div, ← Finset.sum_sub_distrib]

end Cert.Mmd

end
-- ==== Proof.MathZero.lean ====
import proofs.«167831_j66408784331046_1_alg».proof.Proof.MathCoe

noncomputable section

namespace Cert.Mmd

open Idealize.ShloMosaic

/-- Scale 0 (largest entry = smallest): every quotient by it is `±∞`, the bandwidth `−∞`, the sum of its reciprocals 0, so both results are 0. -/
theorem div_zero_inf (x : EReal) : Ideal.div x 0 = ⊤ ∨ Ideal.div x 0 = ⊥ := by
  unfold Ideal.div
  rw [if_pos rfl]
  by_cases hx : 0 < x
  · left; rw [if_pos hx]
  · right; rw [if_neg hx]

theorem inf_add_inf {x y : EReal} (hx : x = ⊤ ∨ x = ⊥) (hy : y = ⊤ ∨ y = ⊥) : x + y = ⊤ ∨ x + y = ⊥ := by
  rcases hx with rfl | rfl <;> rcases hy with rfl | rfl
  · left; exact EReal.top_add_top
  · right; exact EReal.add_bot _
  · right; exact EReal.bot_add _
  · right; exact EReal.bot_add _

theorem inf_mul_self {x : EReal} (hx : x = ⊤ ∨ x = ⊥) : x * x = ⊤ := by
  rcases hx with rfl | rfl
  · exact EReal.top_mul_top
  · exact EReal.bot_mul_bot

theorem sum_eq_top {ι : Type} (s : Finset ι) (f : ι → EReal) (hf : ∀ i ∈ s, f i = ⊤) (hs : s.Nonempty) :
    ∑ i ∈ s, f i = ⊤ := by
  classical
  induction s using Finset.induction_on with
  | empty => exact absurd hs Finset.not_nonempty_empty
  | insert a s ha ih =>
    rw [Finset.sum_insert ha, hf a (Finset.mem_insert_self a s)]
    rcases s.eq_empty_or_nonempty with rfl | hne
    · rw [Finset.sum_empty, add_zero]
    · rw [ih (fun i hi => hf i (Finset.mem_insert_of_mem hi)) hne, EReal.top_add_top]

theorem sum_eq_bot {ι : Type} (s : Finset ι) (f : ι → EReal) (a : ι) (ha : a ∈ s) (hf : f a = ⊥) :
    ∑ i ∈ s, f i = ⊥ := by
  classical
  rw [← Finset.add_sum_erase s f ha, hf, EReal.bot_add]

theorem div_bot_pos {c : ℝ} (hc : 0 < c) : Ideal.div ⊥ ((c : ℝ) : EReal) = ⊥ := by
  rw [Ideal.div_coe hc.ne', EReal.bot_mul_coe_of_pos (one_div_pos.mpr hc)]

theorem div_zero_left {c : ℝ} (hc : c ≠ 0) : Ideal.div 0 ((c : ℝ) : EReal) = 0 := by
  rw [Ideal.div_coe hc, zero_mul]

theorem kCdot_scale_zero (cs ct : Fin 256 → EReal) : kCdot 0 cs ct = ⊤ := by
  unfold kCdot
  have hs : (∑ d, (kS 0 cs d + kS 0 ct d) * (kS 0 cs d + kS 0 ct d)) = ⊤ :=
    sum_eq_top Finset.univ _
      (fun d _ => inf_mul_self (inf_add_inf (div_zero_inf (cs d)) (div_zero_inf (ct d)))) Finset.univ_nonempty
  rw [hs, zero_add]

theorem kBw_scale_zero (qs qt : EReal) (cs ct : Fin 256 → EReal) : kBw 0 qs qt cs ct = ⊥ := by
  unfold kBw
  rw [kCdot_scale_zero, EReal.coe_mul_top_of_pos (by norm_num), EReal.sub_top,
    div_bot_pos (by norm_num), div_bot_pos (by norm_num), div_bot_pos (by norm_num)]

theorem kernelTail_scale_zero (M N qs qt : EReal) (cs ct : Fin 256 → EReal) (h : M - N = 0) :
    kernelTail M N qs qt cs ct = 0 := by
  unfold kernelTail
  rw [h, kBw_scale_zero, invBw_bot, zero_mul, div_zero_left (by norm_num), zero_mul]

theorem tot_scale_zero (A B : Mat) (k : Fin 8192) (d : Fin 256) : tot 0 A B k d = ⊤ ∨ tot 0 A B k d = ⊥ := by
  unfold tot
  split
  · exact div_zero_inf _
  · exact div_zero_inf _

theorem rSq_scale_zero (A B : Mat) (k : Fin 8192) : rSq 0 A B k = ⊤ := by
  unfold rSq
  rw [sum_eq_top Finset.univ _ (fun d _ => inf_mul_self (tot_scale_zero A B k d)) Finset.univ_nonempty, zero_add]

theorem rGram_scale_zero_diag (A B : Mat) (k : Fin 8192) : rGram 0 A B k k = ⊤ := by
  unfold rGram
  rw [sum_eq_top Finset.univ _ (fun d _ => inf_mul_self (tot_scale_zero A B k d)) Finset.univ_nonempty, zero_add]

theorem rL2_scale_zero_diag (A B : Mat) (k : Fin 8192) : rL2 0 A B k k = ⊥ := by
  unfold rL2
  rw [rSq_scale_zero, rGram_scale_zero_diag, EReal.coe_mul_top_of_pos (by norm_num), EReal.sub_top,
    div_bot_pos (by norm_num)]

theorem rBw_scale_zero (A B : Mat) : rBw 0 A B = ⊥ := by
  unfold rBw
  have h0 : (∑ k, ∑ l, rL2 0 A B k l) = ⊥ :=
    sum_eq_bot Finset.univ _ (⟨0, by norm_num⟩ : Fin 8192) (Finset.mem_univ _)
      (sum_eq_bot Finset.univ _ (⟨0, by norm_num⟩ : Fin 8192) (Finset.mem_univ _) (rL2_scale_zero_diag A B _))
  rw [h0, EReal.add_bot, div_bot_pos (by norm_num), div_bot_pos (by norm_num)]

theorem rK_scale_zero (A B : Mat) (k l : Fin 8192) : rK 0 A B k l = 0 := by
  unfold rK
  rw [rBw_scale_zero, invBw_bot, mul_zero]

theorem rE_scale_zero (A B : Mat) (i j : Fin 4096) : rE 0 A B i j = 0 := by
  unfold rE
  simp only [rK_scale_zero, add_zero, sub_zero]

theorem refOut_scale_zero (A B : Mat) (h : mx A - mn A = 0) : refOut A B = 0 := by
  unfold refOut
  rw [h]
  have h0 : (∑ i, ∑ j, rE 0 A B i j) = 0 :=
    Finset.sum_eq_zero (fun i _ => Finset.sum_eq_zero (fun j _ => rE_scale_zero A B i j))
  rw [h0, add_zero, div_zero_left (by norm_num)]

end Cert.Mmd

end
-- ==== Proof.MathMain.lean ====
import proofs.«167831_j66408784331046_1_alg».proof.Proof.MathCoe2
import proofs.«167831_j66408784331046_1_alg».proof.Proof.MathCross
import proofs.«167831_j66408784331046_1_alg».proof.Proof.MathZero

noncomputable section

namespace Cert.Mmd

open Idealize.ShloMosaic

theorem kernelTail_up (M N : ℝ) (a b : RMat) (hσ : M - N ≠ 0) :
    kernelTail ((M : ℝ) : EReal) ((N : ℝ) : EReal) (sumsq (up a)) (sumsq (up b)) (colsum (up a)) (colsum (up b))
      = Ideal.div (invBw ((bwR (M - N) a b : ℝ) : EReal) * ((2 : ℝ) : EReal)) ((4294967296 : ℝ) : EReal)
          * ((kDiffR (M - N) (csum a) (csum b) : ℝ) : EReal) := by
  have hca : colsum (up a) = fun d => ((csum a d : ℝ) : EReal) := funext fun d => colsum_up a d
  have hcb : colsum (up b) = fun d => ((csum b d : ℝ) : EReal) := funext fun d => colsum_up b d
  unfold kernelTail
  rw [hca, hcb, sumsq_up, sumsq_up, ← EReal.coe_sub, kBw_coe _ _ _ _ _ hσ, kDiff_coe _ _ _ hσ,
    kBwR_eq_bwR _ _ _ hσ]

theorem l2R_eq_zero_of_bwR_eq_zero (σ : ℝ) (a b : RMat) (h : bwR σ a b = 0) (k l : Fin 8192) :
    l2R σ a b k l = 0 := by
  unfold bwR at h
  have h4 : (4 : ℝ) ≠ 0 := by norm_num
  have h6 : (67100672 : ℝ) ≠ 0 := by norm_num
  have hs : ∑ k, ∑ l, l2R σ a b k l = 0 :=
    (div_eq_zero_iff.mp ((div_eq_zero_iff.mp h).resolve_right h4)).resolve_right h6
  have h1 := (Finset.sum_eq_zero_iff_of_nonneg
    (fun k _ => Finset.sum_nonneg (fun l _ => l2R_nonneg σ a b k l))).mp hs k (Finset.mem_univ k)
  exact (Finset.sum_eq_zero_iff_of_nonneg (fun l _ => l2R_nonneg σ a b k l)).mp h1 l (Finset.mem_univ l)

theorem rE_coe (σ : ℝ) (a b : RMat) (hσ : σ ≠ 0) (hbw : bwR σ a b ≠ 0) (i j : Fin 4096) :
    rE ((σ : ℝ) : EReal) (up a) (up b) i j
      = ((-(invBwR (bwR σ a b)) * (((l2R σ a b (lo i) (lo j) + l2R σ a b (hi i) (hi j))
          - l2R σ a b (lo i) (hi j)) - l2R σ a b (hi i) (lo j)) : ℝ) : EReal) := by
  unfold rE rK
  rw [rBw_coe σ a b hσ, invBw_coe _ hbw]
  simp only [rL2_coe σ a b hσ]
  rw [show -(invBwR (bwR σ a b)) * (((l2R σ a b (lo i) (lo j) + l2R σ a b (hi i) (hi j))
          - l2R σ a b (lo i) (hi j)) - l2R σ a b (hi i) (lo j))
        = ((-l2R σ a b (lo i) (lo j) * invBwR (bwR σ a b) + -l2R σ a b (hi i) (hi j) * invBwR (bwR σ a b))
          - -l2R σ a b (lo i) (hi j) * invBwR (bwR σ a b)) - -l2R σ a b (hi i) (lo j) * invBwR (bwR σ a b) by ring]
  simp only [EReal.coe_sub, EReal.coe_add, EReal.coe_mul, EReal.coe_neg]

/-- For real matrices both results are one function of the six reductions. -/
theorem kernelOut_eq_refOut (a b : RMat) : kernelOut (up a) (up b) = refOut (up a) (up b) := by
  obtain ⟨M, hM, _, _⟩ := mx_up a
  obtain ⟨N, hN, _, _⟩ := mn_up a
  by_cases hσ : M - N = 0
  ·
    have h0 : mx (up a) - mn (up a) = 0 := by rw [hM, hN, ← EReal.coe_sub, hσ, EReal.coe_zero]
    rw [refOut_scale_zero _ _ h0]
    unfold kernelOut
    exact kernelTail_scale_zero _ _ _ _ _ _ h0
  · unfold kernelOut refOut
    rw [hM, hN, kernelTail_up M N a b hσ, ← EReal.coe_sub]
    by_cases hbw : bwR (M - N) a b = 0
    ·
      have hL : ∀ k l, l2R (M - N) a b k l = 0 := l2R_eq_zero_of_bwR_eq_zero _ a b hbw
      have hK : kDiffR (M - N) (csum a) (csum b) = 0 := by
        have hc := cross_sum (M - N) a b
        simp only [hL, add_zero, sub_zero, Finset.sum_const_zero] at hc
        linarith
      have hE : ∀ i j, rE (((M - N : ℝ)) : EReal) (up a) (up b) i j = 0 := by
        intro i j
        unfold rE rK
        simp only [rL2_coe (M - N) a b hσ, hL, EReal.coe_zero, neg_zero, zero_mul, add_zero, sub_zero]
      simp only [hE, Finset.sum_const_zero, add_zero, hK, EReal.coe_zero, mul_zero]
      rw [← EReal.coe_zero, div_coe_coe _ _ (by norm_num), zero_div]
    ·
      have hsum : ∑ i, ∑ j, rE (((M - N : ℝ)) : EReal) (up a) (up b) i j
          = ((-(invBwR (bwR (M - N) a b)) * (-(2 / 256) * kDiffR (M - N) (csum a) (csum b)) : ℝ) : EReal) := by
        rw [← cross_sum, Finset.mul_sum, coe_sum]
        refine Finset.sum_congr rfl fun i _ => ?_
        rw [Finset.mul_sum, coe_sum]
        refine Finset.sum_congr rfl fun j _ => ?_
        exact rE_coe (M - N) a b hσ hbw i j
      rw [hsum, zero_add, invBw_coe _ hbw, ← EReal.coe_mul, div_coe_coe _ _ (by norm_num), ← EReal.coe_mul,
        div_coe_coe _ _ (by norm_num)]
      rw [EReal.coe_eq_coe_iff]
      ring

/-- Entries that are real numbers: scale 0 gives 0 on both sides, otherwise the real case. -/
theorem kernelOut_eq_refOut_of_real (A B : Mat) (hA : ∀ i d, ∃ r : ℝ, A i d = (r : EReal)) (hB : ∀ i d, ∃ r : ℝ, B i d = (r : EReal)) :
    kernelOut A B = refOut A B := by
  choose a ha using hA
  choose b hb using hB
  have hAa : A = up a := by
    funext i d
    exact ha i d
  have hBb : B = up b := by
    funext i d
    exact hb i d
  rw [hAa, hBb]
  exact kernelOut_eq_refOut a b

end Cert.Mmd

end
-- ==== Proof.lean ====
import proofs.«167831_j66408784331046_1_alg».proof.Defs
import proofs.«167831_j66408784331046_1_alg».proof.Proof.Gen.Kernel
import proofs.«167831_j66408784331046_1_alg».proof.Proof.Gen.KernelIdeal
import proofs.«167831_j66408784331046_1_alg».proof.Proof.Gen.ReferenceIdeal
import proofs.«167831_j66408784331046_1_alg».proof.Proof.Gen.Pre_finite_inputs
import proofs.«167831_j66408784331046_1_alg».proof.Proof.SameText
import proofs.«167831_j66408784331046_1_alg».proof.Proof.KOut
import proofs.«167831_j66408784331046_1_alg».proof.Proof.RefValue
import proofs.«167831_j66408784331046_1_alg».proof.Proof.Finite
import proofs.«167831_j66408784331046_1_alg».proof.Proof.MathMain
import proofs.«167831_j66408784331046_1_alg».proof.Proof.AsMat
import Idealize.ShloMosaic.Lib.StableHlo.Run
import Idealize.ShloMosaic.Lib.ValueIdx

noncomputable section

namespace Cert.Proof

open Idealize.ShloMosaic Idealize.SL.Sem Idealize.ShloMosaic.ValueIdx

theorem frame_kernelIdeal : Cert.frame_KernelIdeal := fun m ρ _ => Cert.KernelIdeal.Hand.frame (F := Ideal) m ρ

theorem frame_referenceIdeal : Cert.frame_ReferenceIdeal := fun m ρ _ =>
  (θ_run Cert.ReferenceIdeal.defs _ _).mono (fun _ h c => (h c).2) (Cert.ReferenceIdeal.ValueP.run (F := Ideal) m ρ)

/-- Both runs end at closed forms of the same two 4096 × 256 matrices; finite entries are real numbers, and over the
    reals the closed form of the six reductions is the statistic of the full matrix of squared distances. -/
theorem algebraic : Cert.algebraic_KernelIdeal_ReferenceIdeal := by
  intro m ρ m' ρ' hpre hagree
  refine ⟨fun c => fun _ => Cert.Mmd.kernelOut (Cert.KernelIdeal.HandValue.matA m c) (Cert.KernelIdeal.HandValue.matB m c),
    Cert.KernelIdeal.HandValue.run_value m ρ, ?_⟩
  refine (θ_run Cert.ReferenceIdeal.defs _ _).mono (fun _ h c => ⟨(h c).1.trans ?_, (h c).2⟩)
    (Cert.ReferenceIdeal.ValueP.run (F := Ideal) m' ρ')
  refine (Cert.ReferenceIdeal.RefValue.result_eq (StableHlo.launchContents m' c)).trans ?_
  have eA : Cert.Mmd.asMat (StableHlo.launchContents m' c (Proc.devRef .tc Cert.ReferenceIdeal.main_arg0))
      = Cert.KernelIdeal.HandValue.matA m c := congrArg Cert.Mmd.asMat (hagree c).1
  have eB : Cert.Mmd.asMat (StableHlo.launchContents m' c (Proc.devRef .tc Cert.ReferenceIdeal.main_arg1))
      = Cert.KernelIdeal.HandValue.matB m c := congrArg Cert.Mmd.asMat (hagree c).2
  rw [eA, eB]
  obtain ⟨hA, hB⟩ := Cert.Mmd.finite_of_pre _ _ (hpre c)
  funext _
  exact (Cert.Mmd.kernelOut_eq_refOut_of_real (Cert.KernelIdeal.HandValue.matA m c) (Cert.KernelIdeal.HandValue.matB m c)
    (fun i d => hA (ix2 i d)) (fun i d => hB (ix2 i d))).symm

theorem claim : Cert.Claim :=
  ⟨Cert.Kernel.Gen.facts, Cert.KernelIdeal.Gen.facts, Cert.ReferenceIdeal.Gen.facts, Cert.Pre_finite_inputs.Gen.facts,
    Cert.SameText.frame_kernel, frame_kernelIdeal, frame_referenceIdeal, trivial, algebraic⟩

end Cert.Proof

end
